-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v140)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v257) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x1 : Shape := ⟨2, ![500000, 1]⟩
abbrev S16000000 : Shape := ⟨1, ![16000000]⟩
abbrev S1x8 : Shape := ⟨2, ![1, 8]⟩
abbrev S8 : Shape := ⟨1, ![8]⟩
abbrev S_ : Shape := ⟨0, ![]⟩
abbrev S8x1 : Shape := ⟨2, ![8, 1]⟩
abbrev S1 : Shape := ⟨1, ![1]⟩

class Facts : Prop where
  bcast_S_S500000x1 : S_.BroadcastsInDim S500000x1 (![] : Fin 0 → Fin S500000x1.rank)
  reducesTo_S500000x1_S_d0_1 : S500000x1.ReducesTo [0, 1] S_
  h_S_ : 0 < S_.numel
  bcast_S_S1x8 : S_.BroadcastsInDim S1x8 (![] : Fin 0 → Fin S1x8.rank)
  reducesTo_S1x8_S_d0_1 : S1x8.ReducesTo [0, 1] S_
  bcast_S_S8 : S_.BroadcastsInDim S8 (![] : Fin 0 → Fin S8.rank)
  reducesTo_S8_S_d0 : S8.ReducesTo [0] S_
  reducesTo_S_S_d : S_.ReducesTo [] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S1 .f32) (main_v32 : IVec S_ 1) (main_v33 : FVec F S8x1 .f32) : IVec S_ 1 :=
  let main_cst_12 : FVec F S_ .f32 := constant S_ .f32 0x7F800000#32
  let main_v34 : FVec F S8x1 .f32 := broadcastInDim S8x1 ![] bcast_S_S8x1 main_cst_12
  let main_v35 : IVec S8x1 1 := cmpf .olt main_v33 main_v34
  let main_c_13 : IVec S_ 1 := constantI S_ 1 1#1
  let main_v36 : IVec S_ 1 := (fun x v => Host.reduce IntOp.andi x v reducesTo_S8x1_S_d0_1 h_S_) main_v35 main_c_13
  let main_v37 : IVec S_ 1 := andi main_v32 main_v36
  let main_v38 : FVec F S1 .f32 := Host.absf main_arg10
  let main_cst_14 : FVec F S_ .f32 := constant S_ .f32 0x7F800000#32
  let main_v39 : FVec F S1 .f32 := broadcastInDim S1 ![] bcast_S_S1 main_cst_14
  let main_v40 : IVec S1 1 := cmpf .olt main_v38 main_v39
  let main_c_15 : IVec S_ 1 := constantI S_ 1 1#1
  let main_v41 : IVec S_ 1 := (fun x v => Host.reduce IntOp.andi x v reducesTo_S1_S_d0 h_S_) main_v40 main_c_15
  let main_v42 : IVec S_ 1 := andi main_v37 main_v41
  main_v42

def fn_part1 {F : FTy → Type} [FloatOps F] (main_arg6 : FVec F S8 .f32) (main_arg7 : FVec F S8 .f32) (main_arg8 : FVec F S_ .f32) (main_arg9 : FVec F S8x1 .f32) (main_arg10 : FVec F S1 .f32) (main_v13 : IVec S_ 1) (main_v16 : IVec S1x8 1) : IVec S_ 1 :=
  let main_c_5 : IVec S_ 1 := constantI S_ 1 1#1
  let main_v17 : IVec S_ 1 := (fun x v => Host.reduce IntOp.andi x v reducesTo_S1x8_S_d0_1 h_S_) main_v16 main_c_5
  let main_v18 : IVec S_ 1 := andi main_v13 main_v17
  let main_v19 : FVec F S8 .f32 := Host.absf main_arg6
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8 .f32 := Host.absf main_arg7
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S_ .f32 := Host.absf main_arg8
  let main_cst_10 : FVec F S_ .f32 := constant S_ .f32 0x7F800000#32
  let main_v30 : IVec S_ 1 := cmpf .olt main_v29 main_cst_10
  let main_c_11 : IVec S_ 1 := constantI S_ 1 1#1
  let main_v31 : IVec S_ 1 := (fun x v => Host.reduce IntOp.andi x v reducesTo_S_S_d h_S_) main_v30 main_c_11
  let main_v32 : IVec S_ 1 := andi main_v28 main_v31
  let main_v33 : FVec F S8x1 .f32 := Host.absf main_arg9
  fn_part2 (F := F) main_arg10 main_v32 main_v33

def fn {F : FTy → Type} [FloatOps F] (main_arg0 : FVec F S500000x1 .f32) (main_arg1 : IVec S16000000 32) (main_arg2 : IVec S16000000 32) (main_arg3 : FVec F S1x8 .f32) (main_arg4 : FVec F S8 .f32) (main_arg5 : FVec F S1x8 .f32) (main_arg6 : FVec F S8 .f32) (main_arg7 : FVec F S8 .f32) (main_arg8 : FVec F S_ .f32) (main_arg9 : FVec F S8x1 .f32) (main_arg10 : FVec F S1 .f32) : IVec S_ 1 :=
  let main_v0 : FVec F S500000x1 .f32 := Host.absf main_arg0
  let main_cst : FVec F S_ .f32 := constant S_ .f32 0x7F800000#32
  let main_v1 : FVec F S500000x1 .f32 := broadcastInDim S500000x1 ![] bcast_S_S500000x1 main_cst
  let main_v2 : IVec S500000x1 1 := cmpf .olt main_v0 main_v1
  let main_c : IVec S_ 1 := constantI S_ 1 1#1
  let main_v3 : IVec S_ 1 := (fun x v => Host.reduce IntOp.andi x v reducesTo_S500000x1_S_d0_1 h_S_) main_v2 main_c
  let main_v4 : FVec F S1x8 .f32 := Host.absf main_arg3
  let main_cst_0 : FVec F S_ .f32 := constant S_ .f32 0x7F800000#32
  let main_v5 : FVec F S1x8 .f32 := broadcastInDim S1x8 ![] bcast_S_S1x8 main_cst_0
  let main_v6 : IVec S1x8 1 := cmpf .olt main_v4 main_v5
  let main_c_1 : IVec S_ 1 := constantI S_ 1 1#1
  let main_v7 : IVec S_ 1 := (fun x v => Host.reduce IntOp.andi x v reducesTo_S1x8_S_d0_1 h_S_) main_v6 main_c_1
  let main_v8 : IVec S_ 1 := andi main_v3 main_v7
  let main_v9 : FVec F S8 .f32 := Host.absf main_arg4
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S1x8 .f32 := Host.absf main_arg5
  let main_cst_4 : FVec F S_ .f32 := constant S_ .f32 0x7F800000#32
  let main_v15 : FVec F S1x8 .f32 := broadcastInDim S1x8 ![] bcast_S_S1x8 main_cst_4
  let main_v16 : IVec S1x8 1 := cmpf .olt main_v14 main_v15
  fn_part1 (F := F) main_arg6 main_arg7 main_arg8 main_arg9 main_arg10 main_v13 main_v16
-- ==== Kernel.lean ====
abbrev S500000x1 : Shape := ⟨2, ![500000, 1]⟩
abbrev S16000000 : Shape := ⟨1, ![16000000]⟩
abbrev S1x8 : Shape := ⟨2, ![1, 8]⟩
abbrev S8 : Shape := ⟨1, ![8]⟩
abbrev S_ : Shape := ⟨0, ![]⟩
abbrev S8x1 : Shape := ⟨2, ![8, 1]⟩
abbrev S1 : Shape := ⟨1, ![1]⟩
abbrev S500000 : Shape := ⟨1, ![500000]⟩
abbrev S16000000x1 : Shape := ⟨2, ![16000000, 1]⟩
abbrev S1x500000 : Shape := ⟨2, ![1, 500000]⟩
abbrev S1x1 : Shape := ⟨2, ![1, 1]⟩
abbrev S8x500000 : Shape := ⟨2, ![8, 500000]⟩

abbrev nBuf : Space → Nat
  | .hbm => 190
  | .vmem => 52
  | .smem => 0
  | _ => 0

abbrev hbmTy0_0 (i : Nat) : BufTy := match i % 128 with
  | 0 => ⟨S500000x1, .f32⟩
  | 1 => ⟨S16000000, .i32⟩
  | 2 => ⟨S16000000, .i32⟩
  | 3 => ⟨S1x8, .f32⟩
  | 4 => ⟨S8, .f32⟩
  | 5 => ⟨S1x8, .f32⟩
  | 6 => ⟨S8, .f32⟩
  | 7 => ⟨S8, .f32⟩
  | 8 => ⟨S_, .f32⟩
  | 9 => ⟨S8x1, .f32⟩
  | 10 => ⟨S1, .f32⟩
  | 11 => ⟨S_, .f32⟩
  | 12 => ⟨S16000000, .f32⟩
  | 13 => ⟨S_, .f32⟩
  | 14 => ⟨S500000, .f32⟩
  | 15 => ⟨S16000000x1, .i32⟩
  | 16 => ⟨S500000, .f32⟩
  | 17 => ⟨S_, .f32⟩
  | 18 => ⟨S_, .f32⟩
  | 19 => ⟨S500000, .f32⟩
  | 20 => ⟨S500000, .f32⟩
  | 21 => ⟨S_, .f32⟩
  | 22 => ⟨S500000, .f32⟩
  | 23 => ⟨S16000000x1, .i32⟩
  | 24 => ⟨S500000, .f32⟩
  | 25 => ⟨S_, .f32⟩
  | 26 => ⟨S_, .f32⟩
  | 27 => ⟨S500000, .f32⟩
  | 28 => ⟨S500000, .f32⟩
  | 29 => ⟨S_, .f32⟩
  | 30 => ⟨S500000, .f32⟩
  | 31 => ⟨S500000, .f32⟩
  | 32 => ⟨S1x500000, .f32⟩
  | 33 => ⟨S_, .f32⟩
  | 34 => ⟨S500000, .f32⟩
  | 35 => ⟨S500000, .f32⟩
  | 36 => ⟨S1x500000, .f32⟩
  | 37 => ⟨S8x1, .f32⟩
  | 38 => ⟨S8x1, .f32⟩
  | 39 => ⟨S8x1, .f32⟩
  | 40 => ⟨S8x1, .f32⟩
  | 41 => ⟨S8x1, .f32⟩
  | 42 => ⟨S1x1, .f32⟩
  | 43 => ⟨S1x1, .f32⟩
  | 44 => ⟨S_, .f32⟩
  | 45 => ⟨S500000x1, .f32⟩
  | 46 => ⟨S500000x1, .i1⟩
  | 47 => ⟨S_, .f32⟩
  | 48 => ⟨S500000x1, .f32⟩
  | 49 => ⟨S500000x1, .f32⟩
  | 50 => ⟨S500000, .f32⟩
  | 51 => ⟨S1x500000, .f32⟩
  | 52 => ⟨S1x500000, .f32⟩
  | 53 => ⟨S500000, .f32⟩
  | 54 => ⟨S_, .i32⟩
  | 55 => ⟨S16000000, .i32⟩
  | 56 => ⟨S16000000, .i1⟩
  | 57 => ⟨S_, .i32⟩
  | 58 => ⟨S16000000, .i32⟩
  | 59 => ⟨S16000000, .i32⟩
  | 60 => ⟨S16000000, .i32⟩
  | 61 => ⟨S16000000x1, .i32⟩
  | 62 => ⟨S16000000, .f32⟩
  | 63 => ⟨S_, .f32⟩
  | 64 => ⟨S500000, .f32⟩
  | 65 => ⟨S16000000x1, .i32⟩
  | 66 => ⟨S500000, .f32⟩
  | 67 => ⟨S1x500000, .f32⟩
  | 68 => ⟨S1x500000, .f32⟩
  | 69 => ⟨S500000, .f32⟩
  | 70 => ⟨S_, .i32⟩
  | 71 => ⟨S16000000, .i32⟩
  | 72 => ⟨S16000000, .i1⟩
  | 73 => ⟨S_, .i32⟩
  | 74 => ⟨S16000000, .i32⟩
  | 75 => ⟨S16000000, .i32⟩
  | 76 => ⟨S16000000, .i32⟩
  | 77 => ⟨S16000000x1, .i32⟩
  | 78 => ⟨S16000000, .f32⟩
  | 79 => ⟨S_, .f32⟩
  | 80 => ⟨S500000, .f32⟩
  | 81 => ⟨S16000000x1, .i32⟩
  | 82 => ⟨S500000, .f32⟩
  | 83 => ⟨S1x500000, .f32⟩
  | 84 => ⟨S1x500000, .f32⟩
  | 85 => ⟨S1x500000, .f32⟩
  | 86 => ⟨S1x500000, .f32⟩
  | 87 => ⟨S500000, .f32⟩
  | 88 => ⟨S_, .i32⟩
  | 89 => ⟨S16000000, .i32⟩
  | 90 => ⟨S16000000, .i1⟩
  | 91 => ⟨S_, .i32⟩
  | 92 => ⟨S16000000, .i32⟩
  | 93 => ⟨S16000000, .i32⟩
  | 94 => ⟨S16000000, .i32⟩
  | 95 => ⟨S16000000x1, .i32⟩
  | 96 => ⟨S16000000, .f32⟩
  | 97 => ⟨S_, .f32⟩
  | 98 => ⟨S500000, .f32⟩
  | 99 => ⟨S16000000x1, .i32⟩
  | 100 => ⟨S500000, .f32⟩
  | 101 => ⟨S1x500000, .f32⟩
  | 102 => ⟨S1x500000, .f32⟩
  | 103 => ⟨S500000, .f32⟩
  | 104 => ⟨S_, .i32⟩
  | 105 => ⟨S16000000, .i32⟩
  | 106 => ⟨S16000000, .i1⟩
  | 107 => ⟨S_, .i32⟩
  | 108 => ⟨S16000000, .i32⟩
  | 109 => ⟨S16000000, .i32⟩
  | 110 => ⟨S16000000, .i32⟩
  | 111 => ⟨S16000000x1, .i32⟩
  | 112 => ⟨S16000000, .f32⟩
  | 113 => ⟨S_, .f32⟩
  | 114 => ⟨S500000, .f32⟩
  | 115 => ⟨S16000000x1, .i32⟩
  | 116 => ⟨S500000, .f32⟩
  | 117 => ⟨S1x500000, .f32⟩
  | 118 => ⟨S1x500000, .f32⟩
  | 119 => ⟨S1x500000, .f32⟩
  | 120 => ⟨S1x500000, .f32⟩
  | 121 => ⟨S500000, .f32⟩
  | 122 => ⟨S_, .i32⟩
  | 123 => ⟨S16000000, .i32⟩
  | 124 => ⟨S16000000, .i1⟩
  | 125 => ⟨S_, .i32⟩
  | 126 => ⟨S16000000, .i32⟩
  | 127 => ⟨S16000000, .i32⟩
  | _ => ⟨S500000x1, .f32⟩

abbrev hbmTy0_1 (i : Nat) : BufTy := match i % 128 with
  | 0 => ⟨S16000000, .i32⟩
  | 1 => ⟨S16000000x1, .i32⟩
  | 2 => ⟨S16000000, .f32⟩
  | 3 => ⟨S_, .f32⟩
  | 4 => ⟨S500000, .f32⟩
  | 5 => ⟨S16000000x1, .i32⟩
  | 6 => ⟨S500000, .f32⟩
  | 7 => ⟨S1x500000, .f32⟩
  | 8 => ⟨S1x500000, .f32⟩
  | 9 => ⟨S500000, .f32⟩
  | 10 => ⟨S_, .i32⟩
  | 11 => ⟨S16000000, .i32⟩
  | 12 => ⟨S16000000, .i1⟩
  | 13 => ⟨S_, .i32⟩
  | 14 => ⟨S16000000, .i32⟩
  | 15 => ⟨S16000000, .i32⟩
  | 16 => ⟨S16000000, .i32⟩
  | 17 => ⟨S16000000x1, .i32⟩
  | 18 => ⟨S16000000, .f32⟩
  | 19 => ⟨S_, .f32⟩
  | 20 => ⟨S500000, .f32⟩
  | 21 => ⟨S16000000x1, .i32⟩
  | 22 => ⟨S500000, .f32⟩
  | 23 => ⟨S1x500000, .f32⟩
  | 24 => ⟨S1x500000, .f32⟩
  | 25 => ⟨S1x500000, .f32⟩
  | 26 => ⟨S1x500000, .f32⟩
  | 27 => ⟨S500000, .f32⟩
  | 28 => ⟨S_, .i32⟩
  | 29 => ⟨S16000000, .i32⟩
  | 30 => ⟨S16000000, .i1⟩
  | 31 => ⟨S_, .i32⟩
  | 32 => ⟨S16000000, .i32⟩
  | 33 => ⟨S16000000, .i32⟩
  | 34 => ⟨S16000000, .i32⟩
  | 35 => ⟨S16000000x1, .i32⟩
  | 36 => ⟨S16000000, .f32⟩
  | 37 => ⟨S_, .f32⟩
  | 38 => ⟨S500000, .f32⟩
  | 39 => ⟨S16000000x1, .i32⟩
  | 40 => ⟨S500000, .f32⟩
  | 41 => ⟨S1x500000, .f32⟩
  | 42 => ⟨S1x500000, .f32⟩
  | 43 => ⟨S500000, .f32⟩
  | 44 => ⟨S_, .i32⟩
  | 45 => ⟨S16000000, .i32⟩
  | 46 => ⟨S16000000, .i1⟩
  | 47 => ⟨S_, .i32⟩
  | 48 => ⟨S16000000, .i32⟩
  | 49 => ⟨S16000000, .i32⟩
  | 50 => ⟨S16000000, .i32⟩
  | 51 => ⟨S16000000x1, .i32⟩
  | 52 => ⟨S16000000, .f32⟩
  | 53 => ⟨S_, .f32⟩
  | 54 => ⟨S500000, .f32⟩
  | 55 => ⟨S16000000x1, .i32⟩
  | 56 => ⟨S500000, .f32⟩
  | 57 => ⟨S1x500000, .f32⟩
  | 58 => ⟨S1x500000, .f32⟩
  | 59 => ⟨S1x500000, .f32⟩
  | 60 => ⟨S500000, .f32⟩
  | 61 => ⟨S500000x1, .f32⟩
  | _ => ⟨S500000x1, .f32⟩

abbrev hbmTy (i : Nat) : BufTy := match i / 128 with
  | 0 => hbmTy0_0 i
  | 1 => hbmTy0_1 i
  | _ => ⟨S500000x1, .f32⟩

abbrev bufTy : (tb : Table) → Fin (tcTables nBuf tb) → BufTy
  | .hbm, ⟨i, _⟩ => hbmTy i
  | .local _ .vmem, ⟨0, _⟩ => ⟨S1x500000, .f32⟩
  | .local _ .vmem, ⟨1, _⟩ => ⟨S1x500000, .f32⟩
  | .local _ .vmem, ⟨2, _⟩ => ⟨S1x500000, .f32⟩
  | .local _ .vmem, ⟨3, _⟩ => ⟨S1x500000, .f32⟩
  | .local _ .vmem, ⟨4, _⟩ => ⟨S8x1, .f32⟩
  | .local _ .vmem, ⟨5, _⟩ => ⟨S8x1, .f32⟩
  | .local _ .vmem, ⟨6, _⟩ => ⟨S8x1, .f32⟩
  | .local _ .vmem, ⟨7, _⟩ => ⟨S8x1, .f32⟩
  | .local _ .vmem, ⟨8, _⟩ => ⟨S8x1, .f32⟩
  | .local _ .vmem, ⟨9, _⟩ => ⟨S1x1, .f32⟩
  | .local _ .vmem, ⟨10, _⟩ => ⟨S8x1, .f32⟩
  | .local _ .vmem, ⟨11, _⟩ => ⟨S1x1, .f32⟩
  | .local _ .vmem, ⟨12, _⟩ => ⟨S1x500000, .f32⟩
  | .local _ .vmem, ⟨13, _⟩ => ⟨S1x500000, .f32⟩
  | .local _ .vmem, ⟨14, _⟩ => ⟨S1x500000, .f32⟩
  | .local _ .vmem, ⟨15, _⟩ => ⟨S1x500000, .f32⟩
  | .local _ .vmem, ⟨16, _⟩ => ⟨S1x500000, .f32⟩
  | .local _ .vmem, ⟨17, _⟩ => ⟨S8x1, .f32⟩
  | .local _ .vmem, ⟨18, _⟩ => ⟨S8x1, .f32⟩
  | .local _ .vmem, ⟨19, _⟩ => ⟨S8x1, .f32⟩
  | .local _ .vmem, ⟨20, _⟩ => ⟨S8x1, .f32⟩
  | .local _ .vmem, ⟨21, _⟩ => ⟨S8x1, .f32⟩
  | .local _ .vmem, ⟨22, _⟩ => ⟨S1x1, .f32⟩
  | .local _ .vmem, ⟨23, _⟩ => ⟨S8x1, .f32⟩
  | .local _ .vmem, ⟨24, _⟩ => ⟨S1x1, .f32⟩
  | .local _ .vmem, ⟨25, _⟩ => ⟨S1x500000, .f32⟩
  | .local _ .vmem, ⟨26, _⟩ => ⟨S1x500000, .f32⟩
  | .local _ .vmem, ⟨27, _⟩ => ⟨S1x500000, .f32⟩
  | .local _ .vmem, ⟨28, _⟩ => ⟨S1x500000, .f32⟩
  | .local _ .vmem, ⟨29, _⟩ => ⟨S1x500000, .f32⟩
  | .local _ .vmem, ⟨30, _⟩ => ⟨S8x1, .f32⟩
  | .local _ .vmem, ⟨31, _⟩ => ⟨S8x1, .f32⟩
  | .local _ .vmem, ⟨32, _⟩ => ⟨S8x1, .f32⟩
  | .local _ .vmem, ⟨33, _⟩ => ⟨S8x1, .f32⟩
  | .local _ .vmem, ⟨34, _⟩ => ⟨S8x1, .f32⟩
  | .local _ .vmem, ⟨35, _⟩ => ⟨S1x1, .f32⟩
  | .local _ .vmem, ⟨36, _⟩ => ⟨S8x1, .f32⟩
  | .local _ .vmem, ⟨37, _⟩ => ⟨S1x1, .f32⟩
  | .local _ .vmem, ⟨38, _⟩ => ⟨S1x500000, .f32⟩
  | .local _ .vmem, ⟨39, _⟩ => ⟨S1x500000, .f32⟩
  | .local _ .vmem, ⟨40, _⟩ => ⟨S1x500000, .f32⟩
  | .local _ .vmem, ⟨41, _⟩ => ⟨S1x500000, .f32⟩
  | .local _ .vmem, ⟨42, _⟩ => ⟨S1x500000, .f32⟩
  | .local _ .vmem, ⟨43, _⟩ => ⟨S8x1, .f32⟩
  | .local _ .vmem, ⟨44, _⟩ => ⟨S8x1, .f32⟩
  | .local _ .vmem, ⟨45, _⟩ => ⟨S8x1, .f32⟩
  | .local _ .vmem, ⟨46, _⟩ => ⟨S8x1, .f32⟩
  | .local _ .vmem, ⟨47, _⟩ => ⟨S8x1, .f32⟩
  | .local _ .vmem, ⟨48, _⟩ => ⟨S1x1, .f32⟩
  | .local _ .vmem, ⟨49, _⟩ => ⟨S8x1, .f32⟩
  | .local _ .vmem, ⟨50, _⟩ => ⟨S1x1, .f32⟩
  | .local _ .vmem, ⟨51, _⟩ => ⟨S1x500000, .f32⟩
  | _, _ => ⟨S500000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v8 : Ref sig .tc := ⟨.hbm, 28, rfl⟩
abbrev main_cst_4 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_5 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_6 : Ref sig .tc := ⟨.hbm, 44, rfl⟩
abbrev main_v22 : Ref sig .tc := ⟨.hbm, 45, rfl⟩
abbrev main_v23 : Ref sig .tc := ⟨.hbm, 46, rfl⟩
abbrev main_cst_7 : Ref sig .tc := ⟨.hbm, 47, rfl⟩
abbrev main_call2_v0 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c : Ref sig .tc := ⟨.hbm, 54, rfl⟩
abbrev main_v29 : Ref sig .tc := ⟨.hbm, 55, rfl⟩
abbrev main_v30 : Ref sig .tc := ⟨.hbm, 56, rfl⟩
abbrev main_c_8 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_9 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_10 : Ref sig .tc := ⟨.hbm, 70, rfl⟩
abbrev main_v42 : Ref sig .tc := ⟨.hbm, 71, rfl⟩
abbrev main_v43 : Ref sig .tc := ⟨.hbm, 72, rfl⟩
abbrev main_c_11 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_12 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_13 : Ref sig .tc := ⟨.hbm, 88, rfl⟩
abbrev main_v57 : Ref sig .tc := ⟨.hbm, 89, rfl⟩
abbrev main_v58 : Ref sig .tc := ⟨.hbm, 90, rfl⟩
abbrev main_c_14 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_15 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_c_16 : Ref sig .tc := ⟨.hbm, 104, rfl⟩
abbrev main_v70 : Ref sig .tc := ⟨.hbm, 105, rfl⟩
abbrev main_v71 : Ref sig .tc := ⟨.hbm, 106, rfl⟩
abbrev main_c_17 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_18 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_c_19 : Ref sig .tc := ⟨.hbm, 122, rfl⟩
abbrev main_v85 : Ref sig .tc := ⟨.hbm, 123, rfl⟩
abbrev main_v86 : Ref sig .tc := ⟨.hbm, 124, rfl⟩
abbrev main_c_20 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_21 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_c_22 : Ref sig .tc := ⟨.hbm, 138, rfl⟩
abbrev main_v98 : Ref sig .tc := ⟨.hbm, 139, rfl⟩
abbrev main_v99 : Ref sig .tc := ⟨.hbm, 140, rfl⟩
abbrev main_c_23 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_24 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_c_25 : Ref sig .tc := ⟨.hbm, 156, rfl⟩
abbrev main_v113 : Ref sig .tc := ⟨.hbm, 157, rfl⟩
abbrev main_v114 : Ref sig .tc := ⟨.hbm, 158, rfl⟩
abbrev main_c_26 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_27 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_c_28 : Ref sig .tc := ⟨.hbm, 172, rfl⟩
abbrev main_v126 : Ref sig .tc := ⟨.hbm, 173, rfl⟩
abbrev main_v127 : Ref sig .tc := ⟨.hbm, 174, rfl⟩
abbrev main_c_29 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_cst_30 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg12_0 : Ref sig .tc := ⟨.vmem, 25, rfl⟩
abbrev cc2_stg0_0 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg10_0 : Ref sig .tc := ⟨.vmem, 36, rfl⟩
abbrev cc2_stg11_0 : Ref sig .tc := ⟨.vmem, 37, rfl⟩
abbrev cc2_stg12_0 : Ref sig .tc := ⟨.vmem, 38, rfl⟩
abbrev cc3_stg0_0 : Ref sig .tc := ⟨.vmem, 39, rfl⟩
abbrev cc3_stg1_0 : Ref sig .tc := ⟨.vmem, 40, rfl⟩
abbrev cc3_stg2_0 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg6_0 : Ref sig .tc := ⟨.vmem, 45, rfl⟩
abbrev cc3_stg7_0 : Ref sig .tc := ⟨.vmem, 46, rfl⟩
abbrev cc3_stg8_0 : Ref sig .tc := ⟨.vmem, 47, rfl⟩
abbrev cc3_stg9_0 : Ref sig .tc := ⟨.vmem, 48, rfl⟩
abbrev cc3_stg10_0 : Ref sig .tc := ⟨.vmem, 49, rfl⟩
abbrev cc3_stg11_0 : Ref sig .tc := ⟨.vmem, 50, rfl⟩
abbrev cc3_stg12_0 : Ref sig .tc := ⟨.vmem, 51, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc1_sem0_0 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem12_0 : DmaSem sig := 25
abbrev cc2_sem0_0 : DmaSem sig := 26
abbrev cc2_sem1_0 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem9_0 : DmaSem sig := 35
abbrev cc2_sem10_0 : DmaSem sig := 36
abbrev cc2_sem11_0 : DmaSem sig := 37
abbrev cc2_sem12_0 : DmaSem sig := 38
abbrev cc3_sem0_0 : DmaSem sig := 39
abbrev cc3_sem1_0 : DmaSem sig := 40
abbrev cc3_sem2_0 : DmaSem sig := 41
abbrev cc3_sem3_0 : DmaSem sig := 42
abbrev cc3_sem4_0 : DmaSem sig := 43
abbrev cc3_sem5_0 : DmaSem sig := 44
abbrev cc3_sem6_0 : DmaSem sig := 45
abbrev cc3_sem7_0 : DmaSem sig := 46
abbrev cc3_sem8_0 : DmaSem sig := 47
abbrev cc3_sem9_0 : DmaSem sig := 48
abbrev cc3_sem10_0 : DmaSem sig := 49
abbrev cc3_sem11_0 : DmaSem sig := 50
abbrev cc3_sem12_0 : DmaSem sig := 51

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x500000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x500000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x500000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x500000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x500000 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x500000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x500000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x500000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x500000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S8x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S8x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S8x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x500000 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1x500000 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x500000 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x500000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x500000 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S8x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S8x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S8x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S8x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S8x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x1 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x500000 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1x500000 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1x500000 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x500000 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x500000 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S8x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S8x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S8x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S8x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S8x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S8x1 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x1 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x500000 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

class Facts₀ : Prop where
  bcast_S_S16000000 : S_.BroadcastsInDim S16000000 (![] : Fin 0 → Fin S16000000.rank)
  bcast_S_S500000 : S_.BroadcastsInDim S500000 (![] : Fin 0 → Fin S500000.rank)
  bcast_S16000000_S16000000x1_0 : S16000000.BroadcastsInDim S16000000x1 (![0] : Fin 1 → Fin S16000000x1.rank)
  bcast_S500000_S1x500000_1 : S500000.BroadcastsInDim S1x500000 (![1] : Fin 1 → Fin S1x500000.rank)
  shapeCasts_S1x8_S8x1 : S1x8.ShapeCasts S8x1
  shapeCasts_S8_S8x1 : S8.ShapeCasts S8x1
  shapeCasts_S1_S1x1 : S1.ShapeCasts S1x1
  shapeCasts_S_S1x1 : S_.ShapeCasts S1x1
  bcast_S_S500000x1 : S_.BroadcastsInDim S500000x1 (![] : Fin 0 → Fin S500000x1.rank)
  shapeCasts_S500000x1_S500000 : S500000x1.ShapeCasts S500000
  shapeCasts_S1x500000_S500000 : S1x500000.ShapeCasts S500000
  inb_S1x500000_S1x500000_0_0 : ∀ a, (![0, 0] : Fin 2 → Nat) a + S1x500000.size a ≤ S1x500000.size a
  h_S1x500000 : 0 < S1x500000.numel
  shapeCasts_S1x500000_S1x500000 : S1x500000.ShapeCasts S1x500000
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S8x1_S8x500000 : S8x1.Broadcasts S8x500000
  broadcasts_S1x500000_S8x500000 : S1x500000.Broadcasts S8x500000
  reduces_S8x500000_S500000 : S8x500000.Reduces [0] S500000
  shapeCasts_S500000_S1x500000 : S500000.ShapeCasts S1x500000
  broadcasts_S1x1_S8x500000 : S1x1.Broadcasts S8x500000
  broadcasts_S1x1_S1x500000 : S1x1.Broadcasts S1x500000
  bcast_S500000_S500000x1_0 : S500000.BroadcastsInDim S500000x1 (![0] : Fin 1 → Fin S500000x1.rank)
  scatter_S500000_S16000000x1_S16000000_n_0_0_1_wf : ScatterDims.WF S500000 S16000000x1 S16000000 [] [0] [0] 1
  gather_S500000_S16000000x1_S16000000_n_0_n_n_0_1_1_wf : GatherDims.WF S500000 S16000000x1 S16000000 [] [0] [] [0] [] 1 ![1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x500000.size a ≤ S1x500000.size a
  hwx0_0 : ∀ i : grid0.Coords, EltTy.bits .f32 = 32 ∨ (Rect.block (s := S1x500000) S1x500000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x500000.size a ≤ S1x500000.size a
  hwx0_1 : ∀ i : grid0.Coords, EltTy.bits .f32 = 32 ∨ (Rect.block (s := S1x500000) S1x500000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x500000.size a ≤ S1x500000.size a
  hwx0_2 : ∀ i : grid0.Coords, EltTy.bits .f32 = 32 ∨ (Rect.block (s := S1x500000) S1x500000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x500000.size a ≤ S1x500000.size a
  hwx0_3 : ∀ i : grid0.Coords, EltTy.bits .f32 = 32 ∨ (Rect.block (s := S1x500000) S1x500000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S8x1.size a
  hwx0_4 : ∀ i : grid0.Coords, EltTy.bits .f32 = 32 ∨ (Rect.block (s := S8x1) S8x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x1.size a ≤ S8x1.size a
  hwx0_5 : ∀ i : grid0.Coords, EltTy.bits .f32 = 32 ∨ (Rect.block (s := S8x1) S8x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x1.size a ≤ S8x1.size a
  hwx0_6 : ∀ i : grid0.Coords, EltTy.bits .f32 = 32 ∨ (Rect.block (s := S8x1) S8x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x1.size a ≤ S8x1.size a
  hwx0_7 : ∀ i : grid0.Coords, EltTy.bits .f32 = 32 ∨ (Rect.block (s := S8x1) S8x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x1.size a ≤ S8x1.size a
  hwx0_8 : ∀ i : grid0.Coords, EltTy.bits .f32 = 32 ∨ (Rect.block (s := S8x1) S8x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8x1.size a ≤ S8x1.size a
  hwx0_10 : ∀ i : grid0.Coords, EltTy.bits .f32 = 32 ∨ (Rect.block (s := S8x1) S8x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x500000.size a ≤ S1x500000.size a
  hwx0_12 : ∀ i : grid0.Coords, EltTy.bits .f32 = 32 ∨ (Rect.block (s := S1x500000) S1x500000.size (cc0_transform_12 i) (hinb0_12 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x500000.size a ≤ S1x500000.size a
  hwx1_0 : ∀ i : grid1.Coords, EltTy.bits .f32 = 32 ∨ (Rect.block (s := S1x500000) S1x500000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x500000.size a ≤ S1x500000.size a
  hwx1_1 : ∀ i : grid1.Coords, EltTy.bits .f32 = 32 ∨ (Rect.block (s := S1x500000) S1x500000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x500000.size a ≤ S1x500000.size a
  hwx1_2 : ∀ i : grid1.Coords, EltTy.bits .f32 = 32 ∨ (Rect.block (s := S1x500000) S1x500000.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x500000.size a ≤ S1x500000.size a
  hwx1_3 : ∀ i : grid1.Coords, EltTy.bits .f32 = 32 ∨ (Rect.block (s := S1x500000) S1x500000.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x1.size a ≤ S8x1.size a
  hwx1_4 : ∀ i : grid1.Coords, EltTy.bits .f32 = 32 ∨ (Rect.block (s := S8x1) S8x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x1.size a ≤ S8x1.size a
  hwx1_5 : ∀ i : grid1.Coords, EltTy.bits .f32 = 32 ∨ (Rect.block (s := S8x1) S8x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x1.size a ≤ S8x1.size a
  hwx1_6 : ∀ i : grid1.Coords, EltTy.bits .f32 = 32 ∨ (Rect.block (s := S8x1) S8x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S8x1.size a ≤ S8x1.size a
  hwx1_7 : ∀ i : grid1.Coords, EltTy.bits .f32 = 32 ∨ (Rect.block (s := S8x1) S8x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S8x1.size a ≤ S8x1.size a
  hwx1_8 : ∀ i : grid1.Coords, EltTy.bits .f32 = 32 ∨ (Rect.block (s := S8x1) S8x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S8x1.size a ≤ S8x1.size a
  hwx1_10 : ∀ i : grid1.Coords, EltTy.bits .f32 = 32 ∨ (Rect.block (s := S8x1) S8x1.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x1.size a ≤ S1x1.size a
  hwx1_11 : ∀ i : grid1.Coords, EltTy.bits .f32 = 32 ∨ (Rect.block (s := S1x1) S1x1.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x500000.size a ≤ S1x500000.size a
  hwx1_12 : ∀ i : grid1.Coords, EltTy.bits .f32 = 32 ∨ (Rect.block (s := S1x500000) S1x500000.size (cc1_transform_12 i) (hinb1_12 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x500000.size a ≤ S1x500000.size a
  hwx2_0 : ∀ i : grid2.Coords, EltTy.bits .f32 = 32 ∨ (Rect.block (s := S1x500000) S1x500000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x500000.size a ≤ S1x500000.size a
  hwx2_1 : ∀ i : grid2.Coords, EltTy.bits .f32 = 32 ∨ (Rect.block (s := S1x500000) S1x500000.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x500000.size a ≤ S1x500000.size a
  hwx2_2 : ∀ i : grid2.Coords, EltTy.bits .f32 = 32 ∨ (Rect.block (s := S1x500000) S1x500000.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x500000.size a ≤ S1x500000.size a
  hwx2_3 : ∀ i : grid2.Coords, EltTy.bits .f32 = 32 ∨ (Rect.block (s := S1x500000) S1x500000.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S8x1.size a ≤ S8x1.size a
  hwx2_4 : ∀ i : grid2.Coords, EltTy.bits .f32 = 32 ∨ (Rect.block (s := S8x1) S8x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S8x1.size a ≤ S8x1.size a
  hwx2_5 : ∀ i : grid2.Coords, EltTy.bits .f32 = 32 ∨ (Rect.block (s := S8x1) S8x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S8x1.size a ≤ S8x1.size a
  hwx2_6 : ∀ i : grid2.Coords, EltTy.bits .f32 = 32 ∨ (Rect.block (s := S8x1) S8x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S8x1.size a ≤ S8x1.size a
  hwx2_7 : ∀ i : grid2.Coords, EltTy.bits .f32 = 32 ∨ (Rect.block (s := S8x1) S8x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S8x1.size a ≤ S8x1.size a
  hwx2_8 : ∀ i : grid2.Coords, EltTy.bits .f32 = 32 ∨ (Rect.block (s := S8x1) S8x1.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x1.size a ≤ S1x1.size a
  hwx2_9 : ∀ i : grid2.Coords, EltTy.bits .f32 = 32 ∨ (Rect.block (s := S1x1) S1x1.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S8x1.size a ≤ S8x1.size a
  hwx2_10 : ∀ i : grid2.Coords, EltTy.bits .f32 = 32 ∨ (Rect.block (s := S8x1) S8x1.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x1.size a ≤ S1x1.size a
  hwx2_11 : ∀ i : grid2.Coords, EltTy.bits .f32 = 32 ∨ (Rect.block (s := S1x1) S1x1.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x500000.size a ≤ S1x500000.size a
  hwx2_12 : ∀ i : grid2.Coords, EltTy.bits .f32 = 32 ∨ (Rect.block (s := S1x500000) S1x500000.size (cc2_transform_12 i) (hinb2_12 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1x500000.size a ≤ S1x500000.size a
  hwx3_0 : ∀ i : grid3.Coords, EltTy.bits .f32 = 32 ∨ (Rect.block (s := S1x500000) S1x500000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x500000.size a ≤ S1x500000.size a
  hwx3_1 : ∀ i : grid3.Coords, EltTy.bits .f32 = 32 ∨ (Rect.block (s := S1x500000) S1x500000.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x500000.size a ≤ S1x500000.size a
  hwx3_2 : ∀ i : grid3.Coords, EltTy.bits .f32 = 32 ∨ (Rect.block (s := S1x500000) S1x500000.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x500000.size a ≤ S1x500000.size a
  hwx3_3 : ∀ i : grid3.Coords, EltTy.bits .f32 = 32 ∨ (Rect.block (s := S1x500000) S1x500000.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S8x1.size a ≤ S8x1.size a
  hwx3_4 : ∀ i : grid3.Coords, EltTy.bits .f32 = 32 ∨ (Rect.block (s := S8x1) S8x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S8x1.size a ≤ S8x1.size a
  hwx3_5 : ∀ i : grid3.Coords, EltTy.bits .f32 = 32 ∨ (Rect.block (s := S8x1) S8x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S8x1.size a ≤ S8x1.size a
  hwx3_6 : ∀ i : grid3.Coords, EltTy.bits .f32 = 32 ∨ (Rect.block (s := S8x1) S8x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S8x1.size a ≤ S8x1.size a
  hwx3_7 : ∀ i : grid3.Coords, EltTy.bits .f32 = 32 ∨ (Rect.block (s := S8x1) S8x1.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S8x1.size a ≤ S8x1.size a
  hwx3_8 : ∀ i : grid3.Coords, EltTy.bits .f32 = 32 ∨ (Rect.block (s := S8x1) S8x1.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x1.size a ≤ S1x1.size a
  hwx3_9 : ∀ i : grid3.Coords, EltTy.bits .f32 = 32 ∨ (Rect.block (s := S1x1) S1x1.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S8x1.size a ≤ S8x1.size a
  hwx3_10 : ∀ i : grid3.Coords, EltTy.bits .f32 = 32 ∨ (Rect.block (s := S8x1) S8x1.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x1.size a ≤ S1x1.size a
  hwx3_11 : ∀ i : grid3.Coords, EltTy.bits .f32 = 32 ∨ (Rect.block (s := S1x1) S1x1.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x500000.size a ≤ S1x500000.size a
  hwx3_12 : ∀ i : grid3.Coords, EltTy.bits .f32 = 32 ∨ (Rect.block (s := S1x500000) S1x500000.size (cc3_transform_12 i) (hinb3_12 i)).WholeWords (EltTy.packing .f32)

variable [Facts₀]

def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf
def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf

abbrev win0_0 : Pipeline.Window sig grid0 :=
  Pipeline.Window.ofSpec (Memref.whole main_v39) S1x500000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v26) S1x500000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x500000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x500000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S8x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S8x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S8x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S8x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S8x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S8x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v20) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v40) S1x500000.size cc0_transform_12 reads0_12 true true 1 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v67) S1x500000.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v54) S1x500000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x500000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x500000.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S8x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S8x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S8x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S8x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v19) S8x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v21) S1x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg9) S8x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v20) S1x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v68) S1x500000.size cc1_transform_12 reads1_12 true true 1 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v95) S1x500000.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v82) S1x500000.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x500000.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1x500000.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S8x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v16) S8x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v17) S8x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v18) S8x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v19) S8x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v21) S1x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg9) S8x1.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v20) S1x1.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v96) S1x500000.size cc2_transform_12 reads2_12 true true 1 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

abbrev win3_0 : Pipeline.Window sig grid3 :=
  Pipeline.Window.ofSpec (Memref.whole main_v123) S1x500000.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v110) S1x500000.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v11) S1x500000.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v14) S1x500000.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v15) S8x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v16) S8x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v17) S8x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v18) S8x1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v19) S8x1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v21) S1x1.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_arg9) S8x1.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v20) S1x1.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v124) S1x500000.size cc3_transform_12 reads3_12 true true 1 stage3_12 sem3_12
    hrank3 hreads3_12 hinb3_12 nbuf3_12 (Memref.isWhole_whole _) hwx3_12 hstage3_12

abbrev win3 : Fin 13 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | ⟨_ + 13, h⟩ => absurd h (Nat.not_lt.2 (Nat.le_add_left _ _))
abbrev spec3 : Fin 13 → Pipeline.WinSpec sig grid3.rank := fun w => (win3 w).toWinSpec

class Facts : Prop extends Facts₀ where

variable [Facts]
-- ==== ReferenceIdeal.lean ====
abbrev S500000x1 : Shape := ⟨2, ![500000, 1]⟩
abbrev S16000000 : Shape := ⟨1, ![16000000]⟩
abbrev S1x8 : Shape := ⟨2, ![1, 8]⟩
abbrev S8 : Shape := ⟨1, ![8]⟩
abbrev S_ : Shape := ⟨0, ![]⟩
abbrev S8x1 : Shape := ⟨2, ![8, 1]⟩
abbrev S1 : Shape := ⟨1, ![1]⟩
abbrev S500000 : Shape := ⟨1, ![500000]⟩
abbrev S16000000x1 : Shape := ⟨2, ![16000000, 1]⟩
abbrev S500000x8 : Shape := ⟨2, ![500000, 8]⟩
abbrev S1x1 : Shape := ⟨2, ![1, 1]⟩

abbrev nBuf : Space → Nat
  | .hbm => 415
  | .vmem => 0
  | .smem => 0
  | _ => 0

abbrev hbmTy0_0 (i : Nat) : BufTy := match i % 128 with
  | 0 => ⟨S500000x1, .f32⟩
  | 1 => ⟨S16000000, .i32⟩
  | 2 => ⟨S16000000, .i32⟩
  | 3 => ⟨S1x8, .f32⟩
  | 4 => ⟨S8, .f32⟩
  | 5 => ⟨S1x8, .f32⟩
  | 6 => ⟨S8, .f32⟩
  | 7 => ⟨S8, .f32⟩
  | 8 => ⟨S_, .f32⟩
  | 9 => ⟨S8x1, .f32⟩
  | 10 => ⟨S1, .f32⟩
  | 11 => ⟨S_, .f32⟩
  | 12 => ⟨S16000000, .f32⟩
  | 13 => ⟨S_, .f32⟩
  | 14 => ⟨S500000, .f32⟩
  | 15 => ⟨S16000000x1, .i32⟩
  | 16 => ⟨S500000, .f32⟩
  | 17 => ⟨S_, .f32⟩
  | 18 => ⟨S_, .f32⟩
  | 19 => ⟨S500000, .f32⟩
  | 20 => ⟨S500000, .f32⟩
  | 21 => ⟨S_, .f32⟩
  | 22 => ⟨S500000, .f32⟩
  | 23 => ⟨S16000000x1, .i32⟩
  | 24 => ⟨S500000, .f32⟩
  | 25 => ⟨S_, .f32⟩
  | 26 => ⟨S_, .f32⟩
  | 27 => ⟨S500000, .f32⟩
  | 28 => ⟨S500000, .f32⟩
  | 29 => ⟨S_, .f32⟩
  | 30 => ⟨S500000, .f32⟩
  | 31 => ⟨S500000, .f32⟩
  | 32 => ⟨S500000x1, .f32⟩
  | 33 => ⟨S_, .f32⟩
  | 34 => ⟨S500000, .f32⟩
  | 35 => ⟨S500000, .f32⟩
  | 36 => ⟨S500000x1, .f32⟩
  | 37 => ⟨S_, .f32⟩
  | 38 => ⟨S500000x1, .f32⟩
  | 39 => ⟨S500000x1, .i1⟩
  | 40 => ⟨S_, .f32⟩
  | 41 => ⟨S500000x1, .f32⟩
  | 42 => ⟨S500000x1, .f32⟩
  | 43 => ⟨S500000x1, .f32⟩
  | 44 => ⟨S_, .i32⟩
  | 45 => ⟨S16000000, .i32⟩
  | 46 => ⟨S16000000, .i1⟩
  | 47 => ⟨S_, .i32⟩
  | 48 => ⟨S16000000, .i32⟩
  | 49 => ⟨S16000000, .i32⟩
  | 50 => ⟨S16000000, .i32⟩
  | 51 => ⟨S16000000x1, .i32⟩
  | 52 => ⟨S16000000x1, .f32⟩
  | 53 => ⟨S_, .f32⟩
  | 54 => ⟨S500000x1, .f32⟩
  | 55 => ⟨S16000000x1, .i32⟩
  | 56 => ⟨S500000x1, .f32⟩
  | 57 => ⟨S500000x8, .f32⟩
  | 58 => ⟨S1x8, .f32⟩
  | 59 => ⟨S500000x8, .f32⟩
  | 60 => ⟨S500000x8, .f32⟩
  | 61 => ⟨S500000x8, .f32⟩
  | 62 => ⟨S500000x8, .f32⟩
  | 63 => ⟨S500000x8, .f32⟩
  | 64 => ⟨S500000x8, .f32⟩
  | 65 => ⟨S_, .f32⟩
  | 66 => ⟨S500000, .f32⟩
  | 67 => ⟨S500000x1, .f32⟩
  | 68 => ⟨S_, .f32⟩
  | 69 => ⟨S500000x1, .f32⟩
  | 70 => ⟨S500000x1, .f32⟩
  | 71 => ⟨S_, .i32⟩
  | 72 => ⟨S_, .f32⟩
  | 73 => ⟨S500000, .f32⟩
  | 74 => ⟨S500000x1, .f32⟩
  | 75 => ⟨S_, .f32⟩
  | 76 => ⟨S500000x1, .f32⟩
  | 77 => ⟨S500000x1, .f32⟩
  | 78 => ⟨S500000x8, .f32⟩
  | 79 => ⟨S500000x8, .f32⟩
  | 80 => ⟨S500000x8, .f32⟩
  | 81 => ⟨S_, .f32⟩
  | 82 => ⟨S_, .f32⟩
  | 83 => ⟨S_, .f32⟩
  | 84 => ⟨S_, .f32⟩
  | 85 => ⟨S500000, .f32⟩
  | 86 => ⟨S500000x1, .f32⟩
  | 87 => ⟨S500000x1, .f32⟩
  | 88 => ⟨S500000x1, .f32⟩
  | 89 => ⟨S_, .f32⟩
  | 90 => ⟨S_, .i1⟩
  | 91 => ⟨S_, .f32⟩
  | 92 => ⟨S_, .f32⟩
  | 93 => ⟨S500000x1, .f32⟩
  | 94 => ⟨S500000x1, .f32⟩
  | 95 => ⟨S500000x8, .f32⟩
  | 96 => ⟨S500000x8, .f32⟩
  | 97 => ⟨S_, .f32⟩
  | 98 => ⟨S500000x1, .f32⟩
  | 99 => ⟨S500000x1, .f32⟩
  | 100 => ⟨S500000x1, .f32⟩
  | 101 => ⟨S500000x8, .f32⟩
  | 102 => ⟨S500000x8, .f32⟩
  | 103 => ⟨S1x8, .f32⟩
  | 104 => ⟨S500000x8, .f32⟩
  | 105 => ⟨S500000x8, .f32⟩
  | 106 => ⟨S1x8, .f32⟩
  | 107 => ⟨S500000x8, .f32⟩
  | 108 => ⟨S500000x8, .f32⟩
  | 109 => ⟨S_, .f32⟩
  | 110 => ⟨S500000x8, .f32⟩
  | 111 => ⟨S500000x8, .i1⟩
  | 112 => ⟨S500000x8, .f32⟩
  | 113 => ⟨S500000x8, .f32⟩
  | 114 => ⟨S500000x8, .f32⟩
  | 115 => ⟨S500000x8, .f32⟩
  | 116 => ⟨S500000x8, .f32⟩
  | 117 => ⟨S500000x1, .f32⟩
  | 118 => ⟨S1x1, .f32⟩
  | 119 => ⟨S500000x1, .f32⟩
  | 120 => ⟨S500000x1, .f32⟩
  | 121 => ⟨S_, .i32⟩
  | 122 => ⟨S16000000, .i32⟩
  | 123 => ⟨S16000000, .i1⟩
  | 124 => ⟨S_, .i32⟩
  | 125 => ⟨S16000000, .i32⟩
  | 126 => ⟨S16000000, .i32⟩
  | 127 => ⟨S16000000, .i32⟩
  | _ => ⟨S500000x1, .f32⟩

abbrev hbmTy0_1 (i : Nat) : BufTy := match i % 128 with
  | 0 => ⟨S16000000x1, .i32⟩
  | 1 => ⟨S16000000x1, .f32⟩
  | 2 => ⟨S_, .f32⟩
  | 3 => ⟨S500000x1, .f32⟩
  | 4 => ⟨S16000000x1, .i32⟩
  | 5 => ⟨S500000x1, .f32⟩
  | 6 => ⟨S500000x1, .f32⟩
  | 7 => ⟨S500000x1, .f32⟩
  | 8 => ⟨S500000x1, .f32⟩
  | 9 => ⟨S_, .i32⟩
  | 10 => ⟨S16000000, .i32⟩
  | 11 => ⟨S16000000, .i1⟩
  | 12 => ⟨S_, .i32⟩
  | 13 => ⟨S16000000, .i32⟩
  | 14 => ⟨S16000000, .i32⟩
  | 15 => ⟨S16000000, .i32⟩
  | 16 => ⟨S16000000x1, .i32⟩
  | 17 => ⟨S16000000x1, .f32⟩
  | 18 => ⟨S_, .f32⟩
  | 19 => ⟨S500000x1, .f32⟩
  | 20 => ⟨S16000000x1, .i32⟩
  | 21 => ⟨S500000x1, .f32⟩
  | 22 => ⟨S500000x8, .f32⟩
  | 23 => ⟨S1x8, .f32⟩
  | 24 => ⟨S500000x8, .f32⟩
  | 25 => ⟨S500000x8, .f32⟩
  | 26 => ⟨S500000x8, .f32⟩
  | 27 => ⟨S500000x8, .f32⟩
  | 28 => ⟨S500000x8, .f32⟩
  | 29 => ⟨S500000x8, .f32⟩
  | 30 => ⟨S_, .f32⟩
  | 31 => ⟨S500000, .f32⟩
  | 32 => ⟨S500000x1, .f32⟩
  | 33 => ⟨S_, .f32⟩
  | 34 => ⟨S500000x1, .f32⟩
  | 35 => ⟨S500000x1, .f32⟩
  | 36 => ⟨S_, .i32⟩
  | 37 => ⟨S_, .f32⟩
  | 38 => ⟨S500000, .f32⟩
  | 39 => ⟨S500000x1, .f32⟩
  | 40 => ⟨S_, .f32⟩
  | 41 => ⟨S500000x1, .f32⟩
  | 42 => ⟨S500000x1, .f32⟩
  | 43 => ⟨S500000x8, .f32⟩
  | 44 => ⟨S500000x8, .f32⟩
  | 45 => ⟨S500000x8, .f32⟩
  | 46 => ⟨S_, .f32⟩
  | 47 => ⟨S_, .f32⟩
  | 48 => ⟨S_, .f32⟩
  | 49 => ⟨S_, .f32⟩
  | 50 => ⟨S500000, .f32⟩
  | 51 => ⟨S500000x1, .f32⟩
  | 52 => ⟨S500000x1, .f32⟩
  | 53 => ⟨S500000x1, .f32⟩
  | 54 => ⟨S_, .f32⟩
  | 55 => ⟨S_, .i1⟩
  | 56 => ⟨S_, .f32⟩
  | 57 => ⟨S_, .f32⟩
  | 58 => ⟨S500000x1, .f32⟩
  | 59 => ⟨S500000x1, .f32⟩
  | 60 => ⟨S500000x8, .f32⟩
  | 61 => ⟨S500000x8, .f32⟩
  | 62 => ⟨S_, .f32⟩
  | 63 => ⟨S500000x1, .f32⟩
  | 64 => ⟨S500000x1, .f32⟩
  | 65 => ⟨S500000x1, .f32⟩
  | 66 => ⟨S500000x8, .f32⟩
  | 67 => ⟨S500000x8, .f32⟩
  | 68 => ⟨S1x8, .f32⟩
  | 69 => ⟨S500000x8, .f32⟩
  | 70 => ⟨S500000x8, .f32⟩
  | 71 => ⟨S1x8, .f32⟩
  | 72 => ⟨S500000x8, .f32⟩
  | 73 => ⟨S500000x8, .f32⟩
  | 74 => ⟨S_, .f32⟩
  | 75 => ⟨S500000x8, .f32⟩
  | 76 => ⟨S500000x8, .i1⟩
  | 77 => ⟨S500000x8, .f32⟩
  | 78 => ⟨S500000x8, .f32⟩
  | 79 => ⟨S500000x8, .f32⟩
  | 80 => ⟨S500000x8, .f32⟩
  | 81 => ⟨S500000x8, .f32⟩
  | 82 => ⟨S500000x1, .f32⟩
  | 83 => ⟨S1x1, .f32⟩
  | 84 => ⟨S500000x1, .f32⟩
  | 85 => ⟨S500000x1, .f32⟩
  | 86 => ⟨S_, .i32⟩
  | 87 => ⟨S16000000, .i32⟩
  | 88 => ⟨S16000000, .i1⟩
  | 89 => ⟨S_, .i32⟩
  | 90 => ⟨S16000000, .i32⟩
  | 91 => ⟨S16000000, .i32⟩
  | 92 => ⟨S16000000, .i32⟩
  | 93 => ⟨S16000000x1, .i32⟩
  | 94 => ⟨S16000000x1, .f32⟩
  | 95 => ⟨S_, .f32⟩
  | 96 => ⟨S500000x1, .f32⟩
  | 97 => ⟨S16000000x1, .i32⟩
  | 98 => ⟨S500000x1, .f32⟩
  | 99 => ⟨S500000x1, .f32⟩
  | 100 => ⟨S500000x1, .f32⟩
  | 101 => ⟨S500000x1, .f32⟩
  | 102 => ⟨S_, .i32⟩
  | 103 => ⟨S16000000, .i32⟩
  | 104 => ⟨S16000000, .i1⟩
  | 105 => ⟨S_, .i32⟩
  | 106 => ⟨S16000000, .i32⟩
  | 107 => ⟨S16000000, .i32⟩
  | 108 => ⟨S16000000, .i32⟩
  | 109 => ⟨S16000000x1, .i32⟩
  | 110 => ⟨S16000000x1, .f32⟩
  | 111 => ⟨S_, .f32⟩
  | 112 => ⟨S500000x1, .f32⟩
  | 113 => ⟨S16000000x1, .i32⟩
  | 114 => ⟨S500000x1, .f32⟩
  | 115 => ⟨S500000x8, .f32⟩
  | 116 => ⟨S1x8, .f32⟩
  | 117 => ⟨S500000x8, .f32⟩
  | 118 => ⟨S500000x8, .f32⟩
  | 119 => ⟨S500000x8, .f32⟩
  | 120 => ⟨S500000x8, .f32⟩
  | 121 => ⟨S500000x8, .f32⟩
  | 122 => ⟨S500000x8, .f32⟩
  | 123 => ⟨S_, .f32⟩
  | 124 => ⟨S500000, .f32⟩
  | 125 => ⟨S500000x1, .f32⟩
  | 126 => ⟨S_, .f32⟩
  | 127 => ⟨S500000x1, .f32⟩
  | _ => ⟨S500000x1, .f32⟩

abbrev hbmTy0_2 (i : Nat) : BufTy := match i % 128 with
  | 0 => ⟨S500000x1, .f32⟩
  | 1 => ⟨S_, .i32⟩
  | 2 => ⟨S_, .f32⟩
  | 3 => ⟨S500000, .f32⟩
  | 4 => ⟨S500000x1, .f32⟩
  | 5 => ⟨S_, .f32⟩
  | 6 => ⟨S500000x1, .f32⟩
  | 7 => ⟨S500000x1, .f32⟩
  | 8 => ⟨S500000x8, .f32⟩
  | 9 => ⟨S500000x8, .f32⟩
  | 10 => ⟨S500000x8, .f32⟩
  | 11 => ⟨S_, .f32⟩
  | 12 => ⟨S_, .f32⟩
  | 13 => ⟨S_, .f32⟩
  | 14 => ⟨S_, .f32⟩
  | 15 => ⟨S500000, .f32⟩
  | 16 => ⟨S500000x1, .f32⟩
  | 17 => ⟨S500000x1, .f32⟩
  | 18 => ⟨S500000x1, .f32⟩
  | 19 => ⟨S_, .f32⟩
  | 20 => ⟨S_, .i1⟩
  | 21 => ⟨S_, .f32⟩
  | 22 => ⟨S_, .f32⟩
  | 23 => ⟨S500000x1, .f32⟩
  | 24 => ⟨S500000x1, .f32⟩
  | 25 => ⟨S500000x8, .f32⟩
  | 26 => ⟨S500000x8, .f32⟩
  | 27 => ⟨S_, .f32⟩
  | 28 => ⟨S500000x1, .f32⟩
  | 29 => ⟨S500000x1, .f32⟩
  | 30 => ⟨S500000x1, .f32⟩
  | 31 => ⟨S500000x8, .f32⟩
  | 32 => ⟨S500000x8, .f32⟩
  | 33 => ⟨S1x8, .f32⟩
  | 34 => ⟨S500000x8, .f32⟩
  | 35 => ⟨S500000x8, .f32⟩
  | 36 => ⟨S1x8, .f32⟩
  | 37 => ⟨S500000x8, .f32⟩
  | 38 => ⟨S500000x8, .f32⟩
  | 39 => ⟨S_, .f32⟩
  | 40 => ⟨S500000x8, .f32⟩
  | 41 => ⟨S500000x8, .i1⟩
  | 42 => ⟨S500000x8, .f32⟩
  | 43 => ⟨S500000x8, .f32⟩
  | 44 => ⟨S500000x8, .f32⟩
  | 45 => ⟨S500000x8, .f32⟩
  | 46 => ⟨S500000x8, .f32⟩
  | 47 => ⟨S500000x1, .f32⟩
  | 48 => ⟨S1x1, .f32⟩
  | 49 => ⟨S500000x1, .f32⟩
  | 50 => ⟨S500000x1, .f32⟩
  | 51 => ⟨S_, .i32⟩
  | 52 => ⟨S16000000, .i32⟩
  | 53 => ⟨S16000000, .i1⟩
  | 54 => ⟨S_, .i32⟩
  | 55 => ⟨S16000000, .i32⟩
  | 56 => ⟨S16000000, .i32⟩
  | 57 => ⟨S16000000, .i32⟩
  | 58 => ⟨S16000000x1, .i32⟩
  | 59 => ⟨S16000000x1, .f32⟩
  | 60 => ⟨S_, .f32⟩
  | 61 => ⟨S500000x1, .f32⟩
  | 62 => ⟨S16000000x1, .i32⟩
  | 63 => ⟨S500000x1, .f32⟩
  | 64 => ⟨S500000x1, .f32⟩
  | 65 => ⟨S500000x1, .f32⟩
  | 66 => ⟨S500000x1, .f32⟩
  | 67 => ⟨S_, .i32⟩
  | 68 => ⟨S16000000, .i32⟩
  | 69 => ⟨S16000000, .i1⟩
  | 70 => ⟨S_, .i32⟩
  | 71 => ⟨S16000000, .i32⟩
  | 72 => ⟨S16000000, .i32⟩
  | 73 => ⟨S16000000, .i32⟩
  | 74 => ⟨S16000000x1, .i32⟩
  | 75 => ⟨S16000000x1, .f32⟩
  | 76 => ⟨S_, .f32⟩
  | 77 => ⟨S500000x1, .f32⟩
  | 78 => ⟨S16000000x1, .i32⟩
  | 79 => ⟨S500000x1, .f32⟩
  | 80 => ⟨S500000x8, .f32⟩
  | 81 => ⟨S1x8, .f32⟩
  | 82 => ⟨S500000x8, .f32⟩
  | 83 => ⟨S500000x8, .f32⟩
  | 84 => ⟨S500000x8, .f32⟩
  | 85 => ⟨S500000x8, .f32⟩
  | 86 => ⟨S500000x8, .f32⟩
  | 87 => ⟨S500000x8, .f32⟩
  | 88 => ⟨S_, .f32⟩
  | 89 => ⟨S500000, .f32⟩
  | 90 => ⟨S500000x1, .f32⟩
  | 91 => ⟨S_, .f32⟩
  | 92 => ⟨S500000x1, .f32⟩
  | 93 => ⟨S500000x1, .f32⟩
  | 94 => ⟨S_, .i32⟩
  | 95 => ⟨S_, .f32⟩
  | 96 => ⟨S500000, .f32⟩
  | 97 => ⟨S500000x1, .f32⟩
  | 98 => ⟨S_, .f32⟩
  | 99 => ⟨S500000x1, .f32⟩
  | 100 => ⟨S500000x1, .f32⟩
  | 101 => ⟨S500000x8, .f32⟩
  | 102 => ⟨S500000x8, .f32⟩
  | 103 => ⟨S500000x8, .f32⟩
  | 104 => ⟨S_, .f32⟩
  | 105 => ⟨S_, .f32⟩
  | 106 => ⟨S_, .f32⟩
  | 107 => ⟨S_, .f32⟩
  | 108 => ⟨S500000, .f32⟩
  | 109 => ⟨S500000x1, .f32⟩
  | 110 => ⟨S500000x1, .f32⟩
  | 111 => ⟨S500000x1, .f32⟩
  | 112 => ⟨S_, .f32⟩
  | 113 => ⟨S_, .i1⟩
  | 114 => ⟨S_, .f32⟩
  | 115 => ⟨S_, .f32⟩
  | 116 => ⟨S500000x1, .f32⟩
  | 117 => ⟨S500000x1, .f32⟩
  | 118 => ⟨S500000x8, .f32⟩
  | 119 => ⟨S500000x8, .f32⟩
  | 120 => ⟨S_, .f32⟩
  | 121 => ⟨S500000x1, .f32⟩
  | 122 => ⟨S500000x1, .f32⟩
  | 123 => ⟨S500000x1, .f32⟩
  | 124 => ⟨S500000x8, .f32⟩
  | 125 => ⟨S500000x8, .f32⟩
  | 126 => ⟨S1x8, .f32⟩
  | 127 => ⟨S500000x8, .f32⟩
  | _ => ⟨S500000x1, .f32⟩

abbrev hbmTy0_3 (i : Nat) : BufTy := match i % 128 with
  | 0 => ⟨S500000x8, .f32⟩
  | 1 => ⟨S1x8, .f32⟩
  | 2 => ⟨S500000x8, .f32⟩
  | 3 => ⟨S500000x8, .f32⟩
  | 4 => ⟨S_, .f32⟩
  | 5 => ⟨S500000x8, .f32⟩
  | 6 => ⟨S500000x8, .i1⟩
  | 7 => ⟨S500000x8, .f32⟩
  | 8 => ⟨S500000x8, .f32⟩
  | 9 => ⟨S500000x8, .f32⟩
  | 10 => ⟨S500000x8, .f32⟩
  | 11 => ⟨S500000x8, .f32⟩
  | 12 => ⟨S500000x1, .f32⟩
  | 13 => ⟨S1x1, .f32⟩
  | 14 => ⟨S500000x1, .f32⟩
  | 15 => ⟨S500000x1, .f32⟩
  | 16 => ⟨S_, .i32⟩
  | 17 => ⟨S16000000, .i32⟩
  | 18 => ⟨S16000000, .i1⟩
  | 19 => ⟨S_, .i32⟩
  | 20 => ⟨S16000000, .i32⟩
  | 21 => ⟨S16000000, .i32⟩
  | 22 => ⟨S16000000, .i32⟩
  | 23 => ⟨S16000000x1, .i32⟩
  | 24 => ⟨S16000000x1, .f32⟩
  | 25 => ⟨S_, .f32⟩
  | 26 => ⟨S500000x1, .f32⟩
  | 27 => ⟨S16000000x1, .i32⟩
  | 28 => ⟨S500000x1, .f32⟩
  | 29 => ⟨S500000x1, .f32⟩
  | 30 => ⟨S500000x1, .f32⟩
  | _ => ⟨S500000x1, .f32⟩

abbrev hbmTy (i : Nat) : BufTy := match i / 128 with
  | 0 => hbmTy0_0 i
  | 1 => hbmTy0_1 i
  | 2 => hbmTy0_2 i
  | 3 => hbmTy0_3 i
  | _ => ⟨S500000x1, .f32⟩

abbrev bufTy : (tb : Table) → Fin (tcTables nBuf tb) → BufTy
  | .hbm, ⟨i, _⟩ => hbmTy i
  | _, _ => ⟨S500000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v8 : Ref sig .tc := ⟨.hbm, 28, rfl⟩
abbrev main_cst_4 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_5 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_6 : Ref sig .tc := ⟨.hbm, 37, rfl⟩
abbrev main_v15 : Ref sig .tc := ⟨.hbm, 38, rfl⟩
abbrev main_v16 : Ref sig .tc := ⟨.hbm, 39, rfl⟩
abbrev main_cst_7 : Ref sig .tc := ⟨.hbm, 40, rfl⟩
abbrev main_call2_v0 : Ref sig .tc := ⟨.hbm, 41, rfl⟩
abbrev main_v17 : Ref sig .tc := ⟨.hbm, 42, rfl⟩
abbrev main_v18 : Ref sig .tc := ⟨.hbm, 43, rfl⟩
abbrev main_c : Ref sig .tc := ⟨.hbm, 44, rfl⟩
abbrev main_v19 : Ref sig .tc := ⟨.hbm, 45, rfl⟩
abbrev main_v20 : Ref sig .tc := ⟨.hbm, 46, rfl⟩
abbrev main_c_8 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_9 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_10 : Ref sig .tc := ⟨.hbm, 65, rfl⟩
abbrev main_v37 : Ref sig .tc := ⟨.hbm, 66, rfl⟩
abbrev main_v38 : Ref sig .tc := ⟨.hbm, 67, rfl⟩
abbrev main_cst_11 : Ref sig .tc := ⟨.hbm, 68, rfl⟩
abbrev main_v39 : Ref sig .tc := ⟨.hbm, 69, rfl⟩
abbrev main_v40 : Ref sig .tc := ⟨.hbm, 70, rfl⟩
abbrev main_c_12 : Ref sig .tc := ⟨.hbm, 71, rfl⟩
abbrev main_call3_cst : Ref sig .tc := ⟨.hbm, 72, rfl⟩
abbrev main_call3_v0 : Ref sig .tc := ⟨.hbm, 73, rfl⟩
abbrev main_call3_v1 : Ref sig .tc := ⟨.hbm, 74, rfl⟩
abbrev main_call3_cst_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_v6 : Ref sig .tc := ⟨.hbm, 80, rfl⟩
abbrev main_call3_v7 : Ref sig .tc := ⟨.hbm, 81, rfl⟩
abbrev main_call3_cst_1 : Ref sig .tc := ⟨.hbm, 82, rfl⟩
abbrev main_call3_v8 : Ref sig .tc := ⟨.hbm, 83, rfl⟩
abbrev main_call3_cst_2 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_v12 : Ref sig .tc := ⟨.hbm, 88, rfl⟩
abbrev main_call3_cst_3 : Ref sig .tc := ⟨.hbm, 89, rfl⟩
abbrev main_call3_v13 : Ref sig .tc := ⟨.hbm, 90, rfl⟩
abbrev main_call3_cst_4 : Ref sig .tc := ⟨.hbm, 91, rfl⟩
abbrev main_call3_call0_v0 : Ref sig .tc := ⟨.hbm, 92, rfl⟩
abbrev main_call3_call0_v1 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_cst_13 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_cst_14 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_c_15 : Ref sig .tc := ⟨.hbm, 121, rfl⟩
abbrev main_v66 : Ref sig .tc := ⟨.hbm, 122, rfl⟩
abbrev main_v67 : Ref sig .tc := ⟨.hbm, 123, rfl⟩
abbrev main_c_16 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_cst_17 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_c_18 : Ref sig .tc := ⟨.hbm, 137, rfl⟩
abbrev main_v79 : Ref sig .tc := ⟨.hbm, 138, rfl⟩
abbrev main_v80 : Ref sig .tc := ⟨.hbm, 139, rfl⟩
abbrev main_c_19 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_cst_20 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_cst_21 : Ref sig .tc := ⟨.hbm, 158, rfl⟩
abbrev main_v97 : Ref sig .tc := ⟨.hbm, 159, rfl⟩
abbrev main_v98 : Ref sig .tc := ⟨.hbm, 160, rfl⟩
abbrev main_cst_22 : Ref sig .tc := ⟨.hbm, 161, rfl⟩
abbrev main_v99 : Ref sig .tc := ⟨.hbm, 162, rfl⟩
abbrev main_v100 : Ref sig .tc := ⟨.hbm, 163, rfl⟩
abbrev main_c_23 : Ref sig .tc := ⟨.hbm, 164, rfl⟩
abbrev main_call5_cst : Ref sig .tc := ⟨.hbm, 165, rfl⟩
abbrev main_call5_v0 : Ref sig .tc := ⟨.hbm, 166, rfl⟩
abbrev main_call5_v1 : Ref sig .tc := ⟨.hbm, 167, rfl⟩
abbrev main_call5_cst_0 : Ref sig .tc := ⟨.hbm, 168, rfl⟩
abbrev main_call5_v2 : Ref sig .tc := ⟨.hbm, 169, rfl⟩
abbrev main_call5_v3 : Ref sig .tc := ⟨.hbm, 170, rfl⟩
abbrev main_call5_v4 : Ref sig .tc := ⟨.hbm, 171, rfl⟩
abbrev main_call5_v5 : Ref sig .tc := ⟨.hbm, 172, rfl⟩
abbrev main_call5_v6 : Ref sig .tc := ⟨.hbm, 173, rfl⟩
abbrev main_call5_v7 : Ref sig .tc := ⟨.hbm, 174, rfl⟩
abbrev main_call5_cst_1 : Ref sig .tc := ⟨.hbm, 175, rfl⟩
abbrev main_call5_v8 : Ref sig .tc := ⟨.hbm, 176, rfl⟩
abbrev main_call5_cst_2 : Ref sig .tc := ⟨.hbm, 177, rfl⟩
abbrev main_call5_v9 : Ref sig .tc := ⟨.hbm, 178, rfl⟩
abbrev main_call5_v10 : Ref sig .tc := ⟨.hbm, 179, rfl⟩
abbrev main_call5_v11 : Ref sig .tc := ⟨.hbm, 180, rfl⟩
abbrev main_call5_v12 : Ref sig .tc := ⟨.hbm, 181, rfl⟩
abbrev main_call5_cst_3 : Ref sig .tc := ⟨.hbm, 182, rfl⟩
abbrev main_call5_v13 : Ref sig .tc := ⟨.hbm, 183, rfl⟩
abbrev main_call5_cst_4 : Ref sig .tc := ⟨.hbm, 184, rfl⟩
abbrev main_call5_call0_v0 : Ref sig .tc := ⟨.hbm, 185, rfl⟩
abbrev main_call5_call0_v1 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_cst_24 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_cst_25 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_c_26 : Ref sig .tc := ⟨.hbm, 214, rfl⟩
abbrev main_v126 : Ref sig .tc := ⟨.hbm, 215, rfl⟩
abbrev main_v127 : Ref sig .tc := ⟨.hbm, 216, rfl⟩
abbrev main_c_27 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_cst_28 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_c_29 : Ref sig .tc := ⟨.hbm, 230, rfl⟩
abbrev main_v139 : Ref sig .tc := ⟨.hbm, 231, rfl⟩
abbrev main_v140 : Ref sig .tc := ⟨.hbm, 232, rfl⟩
abbrev main_c_30 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_cst_31 : Ref sig .tc := ⟨.hbm, 239, rfl⟩
abbrev main_v146 : Ref sig .tc := ⟨.hbm, 240, rfl⟩
abbrev main_v147 : Ref sig .tc := ⟨.hbm, 241, rfl⟩
abbrev main_v148 : Ref sig .tc := ⟨.hbm, 242, rfl⟩
abbrev main_v149 : Ref sig .tc := ⟨.hbm, 243, rfl⟩
abbrev main_v150 : Ref sig .tc := ⟨.hbm, 244, rfl⟩
abbrev main_v151 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_v155 : Ref sig .tc := ⟨.hbm, 249, rfl⟩
abbrev main_v156 : Ref sig .tc := ⟨.hbm, 250, rfl⟩
abbrev main_cst_32 : Ref sig .tc := ⟨.hbm, 251, rfl⟩
abbrev main_v157 : Ref sig .tc := ⟨.hbm, 252, rfl⟩
abbrev main_v158 : Ref sig .tc := ⟨.hbm, 253, rfl⟩
abbrev main_cst_33 : Ref sig .tc := ⟨.hbm, 254, rfl⟩
abbrev main_v159 : Ref sig .tc := ⟨.hbm, 255, rfl⟩
abbrev main_v160 : Ref sig .tc := ⟨.hbm, 256, rfl⟩
abbrev main_c_34 : Ref sig .tc := ⟨.hbm, 257, rfl⟩
abbrev main_call7_cst : Ref sig .tc := ⟨.hbm, 258, rfl⟩
abbrev main_call7_v0 : Ref sig .tc := ⟨.hbm, 259, rfl⟩
abbrev main_call7_v1 : Ref sig .tc := ⟨.hbm, 260, rfl⟩
abbrev main_call7_cst_0 : Ref sig .tc := ⟨.hbm, 261, rfl⟩
abbrev main_call7_v2 : Ref sig .tc := ⟨.hbm, 262, rfl⟩
abbrev main_call7_v3 : Ref sig .tc := ⟨.hbm, 263, rfl⟩
abbrev main_call7_v4 : Ref sig .tc := ⟨.hbm, 264, rfl⟩
abbrev main_call7_v5 : Ref sig .tc := ⟨.hbm, 265, rfl⟩
abbrev main_call7_v6 : Ref sig .tc := ⟨.hbm, 266, rfl⟩
abbrev main_call7_v7 : Ref sig .tc := ⟨.hbm, 267, rfl⟩
abbrev main_call7_cst_1 : Ref sig .tc := ⟨.hbm, 268, rfl⟩
abbrev main_call7_v8 : Ref sig .tc := ⟨.hbm, 269, rfl⟩
abbrev main_call7_cst_2 : Ref sig .tc := ⟨.hbm, 270, rfl⟩
abbrev main_call7_v9 : Ref sig .tc := ⟨.hbm, 271, rfl⟩
abbrev main_call7_v10 : Ref sig .tc := ⟨.hbm, 272, rfl⟩
abbrev main_call7_v11 : Ref sig .tc := ⟨.hbm, 273, rfl⟩
abbrev main_call7_v12 : Ref sig .tc := ⟨.hbm, 274, rfl⟩
abbrev main_call7_cst_3 : Ref sig .tc := ⟨.hbm, 275, rfl⟩
abbrev main_call7_v13 : Ref sig .tc := ⟨.hbm, 276, rfl⟩
abbrev main_call7_cst_4 : Ref sig .tc := ⟨.hbm, 277, rfl⟩
abbrev main_call7_call0_v0 : Ref sig .tc := ⟨.hbm, 278, rfl⟩
abbrev main_call7_call0_v1 : Ref sig .tc := ⟨.hbm, 279, rfl⟩
abbrev main_v161 : Ref sig .tc := ⟨.hbm, 280, rfl⟩
abbrev main_v162 : Ref sig .tc := ⟨.hbm, 281, rfl⟩
abbrev main_v163 : Ref sig .tc := ⟨.hbm, 282, rfl⟩
abbrev main_cst_35 : Ref sig .tc := ⟨.hbm, 283, rfl⟩
abbrev main_v164 : Ref sig .tc := ⟨.hbm, 284, rfl⟩
abbrev main_v165 : Ref sig .tc := ⟨.hbm, 285, rfl⟩
abbrev main_v166 : Ref sig .tc := ⟨.hbm, 286, rfl⟩
abbrev main_v167 : Ref sig .tc := ⟨.hbm, 287, rfl⟩
abbrev main_v168 : Ref sig .tc := ⟨.hbm, 288, rfl⟩
abbrev main_v169 : Ref sig .tc := ⟨.hbm, 289, rfl⟩
abbrev main_v170 : Ref sig .tc := ⟨.hbm, 290, rfl⟩
abbrev main_v171 : Ref sig .tc := ⟨.hbm, 291, rfl⟩
abbrev main_v172 : Ref sig .tc := ⟨.hbm, 292, rfl⟩
abbrev main_v173 : Ref sig .tc := ⟨.hbm, 293, rfl⟩
abbrev main_v174 : Ref sig .tc := ⟨.hbm, 294, rfl⟩
abbrev main_cst_36 : Ref sig .tc := ⟨.hbm, 295, rfl⟩
abbrev main_v175 : Ref sig .tc := ⟨.hbm, 296, rfl⟩
abbrev main_v176 : Ref sig .tc := ⟨.hbm, 297, rfl⟩
abbrev main_v177 : Ref sig .tc := ⟨.hbm, 298, rfl⟩
abbrev main_v178 : Ref sig .tc := ⟨.hbm, 299, rfl⟩
abbrev main_v179 : Ref sig .tc := ⟨.hbm, 300, rfl⟩
abbrev main_v180 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_v184 : Ref sig .tc := ⟨.hbm, 305, rfl⟩
abbrev main_v185 : Ref sig .tc := ⟨.hbm, 306, rfl⟩
abbrev main_c_37 : Ref sig .tc := ⟨.hbm, 307, rfl⟩
abbrev main_v186 : Ref sig .tc := ⟨.hbm, 308, rfl⟩
abbrev main_v187 : Ref sig .tc := ⟨.hbm, 309, rfl⟩
abbrev main_c_38 : Ref sig .tc := ⟨.hbm, 310, rfl⟩
abbrev main_v188 : Ref sig .tc := ⟨.hbm, 311, rfl⟩
abbrev main_v189 : Ref sig .tc := ⟨.hbm, 312, rfl⟩
abbrev main_v190 : Ref sig .tc := ⟨.hbm, 313, rfl⟩
abbrev main_v191 : Ref sig .tc := ⟨.hbm, 314, rfl⟩
abbrev main_v192 : Ref sig .tc := ⟨.hbm, 315, rfl⟩
abbrev main_cst_39 : Ref sig .tc := ⟨.hbm, 316, rfl⟩
abbrev main_v193 : Ref sig .tc := ⟨.hbm, 317, rfl⟩
abbrev main_v194 : Ref sig .tc := ⟨.hbm, 318, rfl⟩
abbrev main_v195 : Ref sig .tc := ⟨.hbm, 319, rfl⟩
abbrev main_v196 : Ref sig .tc := ⟨.hbm, 320, rfl⟩
abbrev main_v197 : Ref sig .tc := ⟨.hbm, 321, rfl⟩
abbrev main_v198 : Ref sig .tc := ⟨.hbm, 322, rfl⟩
abbrev main_c_40 : Ref sig .tc := ⟨.hbm, 323, rfl⟩
abbrev main_v199 : Ref sig .tc := ⟨.hbm, 324, rfl⟩
abbrev main_v200 : Ref sig .tc := ⟨.hbm, 325, rfl⟩
abbrev main_c_41 : Ref sig .tc := ⟨.hbm, 326, rfl⟩
abbrev main_v201 : Ref sig .tc := ⟨.hbm, 327, rfl⟩
abbrev main_v202 : Ref sig .tc := ⟨.hbm, 328, rfl⟩
abbrev main_v203 : Ref sig .tc := ⟨.hbm, 329, rfl⟩
abbrev main_v204 : Ref sig .tc := ⟨.hbm, 330, rfl⟩
abbrev main_v205 : Ref sig .tc := ⟨.hbm, 331, rfl⟩
abbrev main_cst_42 : Ref sig .tc := ⟨.hbm, 332, rfl⟩
abbrev main_v206 : Ref sig .tc := ⟨.hbm, 333, rfl⟩
abbrev main_v207 : Ref sig .tc := ⟨.hbm, 334, rfl⟩
abbrev main_v208 : Ref sig .tc := ⟨.hbm, 335, rfl⟩
abbrev main_v209 : Ref sig .tc := ⟨.hbm, 336, rfl⟩
abbrev main_v210 : Ref sig .tc := ⟨.hbm, 337, rfl⟩
abbrev main_v211 : Ref sig .tc := ⟨.hbm, 338, rfl⟩
abbrev main_v212 : Ref sig .tc := ⟨.hbm, 339, rfl⟩
abbrev main_v213 : Ref sig .tc := ⟨.hbm, 340, rfl⟩
abbrev main_v214 : Ref sig .tc := ⟨.hbm, 341, rfl⟩
abbrev main_v215 : Ref sig .tc := ⟨.hbm, 342, rfl⟩
abbrev main_v216 : Ref sig .tc := ⟨.hbm, 343, rfl⟩
abbrev main_cst_43 : Ref sig .tc := ⟨.hbm, 344, rfl⟩
abbrev main_v217 : Ref sig .tc := ⟨.hbm, 345, rfl⟩
abbrev main_v218 : Ref sig .tc := ⟨.hbm, 346, rfl⟩
abbrev main_cst_44 : Ref sig .tc := ⟨.hbm, 347, rfl⟩
abbrev main_v219 : Ref sig .tc := ⟨.hbm, 348, rfl⟩
abbrev main_v220 : Ref sig .tc := ⟨.hbm, 349, rfl⟩
abbrev main_c_45 : Ref sig .tc := ⟨.hbm, 350, rfl⟩
abbrev main_call9_cst : Ref sig .tc := ⟨.hbm, 351, rfl⟩
abbrev main_call9_v0 : Ref sig .tc := ⟨.hbm, 352, rfl⟩
abbrev main_call9_v1 : Ref sig .tc := ⟨.hbm, 353, rfl⟩
abbrev main_call9_cst_0 : Ref sig .tc := ⟨.hbm, 354, rfl⟩
abbrev main_call9_v2 : Ref sig .tc := ⟨.hbm, 355, rfl⟩
abbrev main_call9_v3 : Ref sig .tc := ⟨.hbm, 356, rfl⟩
abbrev main_call9_v4 : Ref sig .tc := ⟨.hbm, 357, rfl⟩
abbrev main_call9_v5 : Ref sig .tc := ⟨.hbm, 358, rfl⟩
abbrev main_call9_v6 : Ref sig .tc := ⟨.hbm, 359, rfl⟩
abbrev main_call9_v7 : Ref sig .tc := ⟨.hbm, 360, rfl⟩
abbrev main_call9_cst_1 : Ref sig .tc := ⟨.hbm, 361, rfl⟩
abbrev main_call9_v8 : Ref sig .tc := ⟨.hbm, 362, rfl⟩
abbrev main_call9_cst_2 : Ref sig .tc := ⟨.hbm, 363, rfl⟩
abbrev main_call9_v9 : Ref sig .tc := ⟨.hbm, 364, rfl⟩
abbrev main_call9_v10 : Ref sig .tc := ⟨.hbm, 365, rfl⟩
abbrev main_call9_v11 : Ref sig .tc := ⟨.hbm, 366, rfl⟩
abbrev main_call9_v12 : Ref sig .tc := ⟨.hbm, 367, rfl⟩
abbrev main_call9_cst_3 : Ref sig .tc := ⟨.hbm, 368, rfl⟩
abbrev main_call9_v13 : Ref sig .tc := ⟨.hbm, 369, rfl⟩
abbrev main_call9_cst_4 : Ref sig .tc := ⟨.hbm, 370, rfl⟩
abbrev main_call9_call0_v0 : Ref sig .tc := ⟨.hbm, 371, rfl⟩
abbrev main_call9_call0_v1 : Ref sig .tc := ⟨.hbm, 372, rfl⟩
abbrev main_v221 : Ref sig .tc := ⟨.hbm, 373, rfl⟩
abbrev main_v222 : Ref sig .tc := ⟨.hbm, 374, rfl⟩
abbrev main_v223 : Ref sig .tc := ⟨.hbm, 375, rfl⟩
abbrev main_cst_46 : Ref sig .tc := ⟨.hbm, 376, rfl⟩
abbrev main_v224 : Ref sig .tc := ⟨.hbm, 377, rfl⟩
abbrev main_v225 : Ref sig .tc := ⟨.hbm, 378, rfl⟩
abbrev main_v226 : Ref sig .tc := ⟨.hbm, 379, rfl⟩
abbrev main_v227 : Ref sig .tc := ⟨.hbm, 380, rfl⟩
abbrev main_v228 : Ref sig .tc := ⟨.hbm, 381, rfl⟩
abbrev main_v229 : Ref sig .tc := ⟨.hbm, 382, rfl⟩
abbrev main_v230 : Ref sig .tc := ⟨.hbm, 383, rfl⟩
abbrev main_v231 : Ref sig .tc := ⟨.hbm, 384, rfl⟩
abbrev main_v232 : Ref sig .tc := ⟨.hbm, 385, rfl⟩
abbrev main_v233 : Ref sig .tc := ⟨.hbm, 386, rfl⟩
abbrev main_v234 : Ref sig .tc := ⟨.hbm, 387, rfl⟩
abbrev main_cst_47 : Ref sig .tc := ⟨.hbm, 388, rfl⟩
abbrev main_v235 : Ref sig .tc := ⟨.hbm, 389, rfl⟩
abbrev main_v236 : Ref sig .tc := ⟨.hbm, 390, rfl⟩
abbrev main_v237 : Ref sig .tc := ⟨.hbm, 391, rfl⟩
abbrev main_v238 : Ref sig .tc := ⟨.hbm, 392, rfl⟩
abbrev main_v239 : Ref sig .tc := ⟨.hbm, 393, rfl⟩
abbrev main_v240 : Ref sig .tc := ⟨.hbm, 394, rfl⟩
abbrev main_v241 : Ref sig .tc := ⟨.hbm, 395, rfl⟩
abbrev main_v242 : Ref sig .tc := ⟨.hbm, 396, rfl⟩
abbrev main_v243 : Ref sig .tc := ⟨.hbm, 397, rfl⟩
abbrev main_v244 : Ref sig .tc := ⟨.hbm, 398, rfl⟩
abbrev main_v245 : Ref sig .tc := ⟨.hbm, 399, rfl⟩
abbrev main_c_48 : Ref sig .tc := ⟨.hbm, 400, rfl⟩
abbrev main_v246 : Ref sig .tc := ⟨.hbm, 401, rfl⟩
abbrev main_v247 : Ref sig .tc := ⟨.hbm, 402, rfl⟩
abbrev main_c_49 : Ref sig .tc := ⟨.hbm, 403, rfl⟩
abbrev main_v248 : Ref sig .tc := ⟨.hbm, 404, rfl⟩
abbrev main_v249 : Ref sig .tc := ⟨.hbm, 405, rfl⟩
abbrev main_v250 : Ref sig .tc := ⟨.hbm, 406, rfl⟩
abbrev main_v251 : Ref sig .tc := ⟨.hbm, 407, rfl⟩
abbrev main_v252 : Ref sig .tc := ⟨.hbm, 408, rfl⟩
abbrev main_cst_50 : Ref sig .tc := ⟨.hbm, 409, rfl⟩
abbrev main_v253 : Ref sig .tc := ⟨.hbm, 410, rfl⟩
abbrev main_v254 : Ref sig .tc := ⟨.hbm, 411, rfl⟩
abbrev main_v255 : Ref sig .tc := ⟨.hbm, 412, rfl⟩
abbrev main_v256 : Ref sig .tc := ⟨.hbm, 413, rfl⟩
abbrev main_v257 : Ref sig .tc := ⟨.hbm, 414, rfl⟩

abbrev nD : Nat := 1
abbrev τ : Topo := Topo.v7x

variable {F : FTy → Type} [FloatOps F]

class Facts₀ : Prop where
  bcast_S_S16000000 : S_.BroadcastsInDim S16000000 (![] : Fin 0 → Fin S16000000.rank)
  bcast_S_S500000 : S_.BroadcastsInDim S500000 (![] : Fin 0 → Fin S500000.rank)
  bcast_S16000000_S16000000x1_0 : S16000000.BroadcastsInDim S16000000x1 (![0] : Fin 1 → Fin S16000000x1.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S8_S1x8_1 : S8.BroadcastsInDim S1x8 (![1] : Fin 1 → Fin S1x8.rank)
  bcast_S1x8_S500000x8_0_1 : S1x8.BroadcastsInDim S500000x8 (![0, 1] : Fin 2 → Fin S500000x8.rank)
  bcast_S500000x1_S500000x8_0_1 : S500000x1.BroadcastsInDim S500000x8 (![0, 1] : Fin 2 → Fin S500000x8.rank)
  reducesTo_S500000x8_S500000_d1 : S500000x8.ReducesTo [1] S500000
  h_S_ : 0 < S_.numel
  bcast_S_S500000x8 : S_.BroadcastsInDim S500000x8 (![] : Fin 0 → Fin S500000x8.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  scatter_S500000_S16000000x1_S16000000_n_0_0_1_wf : ScatterDims.WF S500000 S16000000x1 S16000000 [] [0] [0] 1
  gather_S500000x1_S16000000x1_S16000000x1_1_0_n_n_0_1_11_wf : GatherDims.WF S500000x1 S16000000x1 S16000000x1 [1] [0] [] [0] [] 1 ![1, 1]
  scatter_S500000x1_S16000000x1_S16000000x1_1_0_0_1_wf : ScatterDims.WF S500000x1 S16000000x1 S16000000x1 [1] [0] [0] 1
  dot_S500000x1_S1x8_S500000x8_1_0_0_1_n_n_wf : DotDims.WF S500000x1 S1x8 S500000x8 [1] [0] [0] [1] [] []
  dot_S500000x8_S8x1_S500000x1_1_0_0_1_n_n_wf : DotDims.WF S500000x8 S8x1 S500000x1 [1] [0] [0] [1] [] []

variable [Facts₀]

def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf
def gather_S500000x1_S16000000x1_S16000000x1_1_0_n_n_0_1_11 : GatherDims S500000x1 S16000000x1 S16000000x1 where
  offsetDims := [1]
  collapsedSliceDims := [0]
  operandBatchingDims := []
  startIndicesBatchingDims := []
  startIndexMap := [0]
  indexVectorDim := 1
  sliceSizes := ![1, 1]
  wf := gather_S500000x1_S16000000x1_S16000000x1_1_0_n_n_0_1_11_wf
def scatter_S500000x1_S16000000x1_S16000000x1_1_0_0_1 : ScatterDims S500000x1 S16000000x1 S16000000x1 where
  updateWindowDims := [1]
  insertedWindowDims := [0]
  scatterDimsToOperandDims := [0]
  indexVectorDim := 1
  wf := scatter_S500000x1_S16000000x1_S16000000x1_1_0_0_1_wf
def dot_S500000x1_S1x8_S500000x8_1_0_0_1_n_n : DotDims S500000x1 S1x8 S500000x8 where
  lhsContracting := [1]
  rhsContracting := [0]
  lhsNonContracting := [0]
  rhsNonContracting := [1]
  lhsBatch := []
  rhsBatch := []
  wf := dot_S500000x1_S1x8_S500000x8_1_0_0_1_n_n_wf
def dot_S500000x8_S8x1_S500000x1_1_0_0_1_n_n : DotDims S500000x8 S8x1 S500000x1 where
  lhsContracting := [1]
  rhsContracting := [0]
  lhsNonContracting := [0]
  rhsNonContracting := [1]
  lhsBatch := []
  rhsBatch := []
  wf := dot_S500000x8_S8x1_S500000x1_1_0_0_1_n_n_wf

class Facts : Prop extends Facts₀ where

variable [Facts]
-- ==== Proof.KerFns.lean ====
/- The idealized kernel program's host stages as functions of arrays, each in the program's own operations and order. -/
import proofs.«409853_j63763084476519_2_alg».proof.Proof.Gen.KernelIdeal

noncomputable section

namespace Cert.KernelIdeal.Fn

open Cert.KernelIdeal Cert.KernelIdeal.Gen Idealize.ShloMosaic

variable {F : FTy → Type} [FloatOps F]

noncomputable def h0 (y : (⟨S500000x1, .f32⟩ : BufTy).Contents (Elt F)) : (⟨S1x500000, .f32⟩ : BufTy).Contents (Elt F) :=
  have cst_6 : (⟨S_, .f32⟩ : BufTy).Contents (Elt F) := (constant S_ .f32 0x00000000#32)
  have v22 := broadcastInDim S500000x1 ![] bcast_S_S500000x1 cst_6
  have v23 := cmpf .oeq y v22
  have cst_7 : (⟨S_, .f32⟩ : BufTy).Contents (Elt F) := (constant S_ .f32 0xBF800000#32)
  have call2_v0 := broadcastInDim S500000x1 ![] bcast_S_S500000x1 cst_7
  have v24 := select v23 call2_v0 y
  have v25 := shapeCast S500000 v24 shapeCasts_S500000x1_S500000
  have v26 := broadcastInDim S1x500000 ![1] bcast_S500000_S1x500000_1 v25
  v26

noncomputable def degRow (ends : (⟨S16000000, .i32⟩ : BufTy).Contents (Elt F)) : (⟨S1x500000, .f32⟩ : BufTy).Contents (Elt F) :=
  have cst : (⟨S_, .f32⟩ : BufTy).Contents (Elt F) := (constant S_ .f32 0x3F800000#32)
  have v0 := broadcastInDim S16000000 ![] bcast_S_S16000000 cst
  have cst_0 : (⟨S_, .f32⟩ : BufTy).Contents (Elt F) := (constant S_ .f32 0x00000000#32)
  have v1 := broadcastInDim S500000 ![] bcast_S_S500000 cst_0
  have v2 := broadcastInDim S16000000x1 ![0] bcast_S16000000_S16000000x1_0 ends
  have v3 := Host.scatterAdd scatter_S500000_S16000000x1_S16000000_n_0_0_1 v1 v2 v0
  have cst_1 : (⟨S_, .f32⟩ : BufTy).Contents (Elt F) := (constant S_ .f32 0x3F800000#32)
  have call0_v0 := id cst_1
  have call0_v1 := broadcastInDim S500000 ![] bcast_S_S500000 call0_v0
  have v4 := maximumf call0_v1 v3
  have cst_4 : (⟨S_, .f32⟩ : BufTy).Contents (Elt F) := (constant S_ .f32 0xBF000000#32)
  have v9 := broadcastInDim S500000 ![] bcast_S_S500000 cst_4
  have v10 := Host.powf v4 v9
  have v11 := broadcastInDim S1x500000 ![1] bcast_S500000_S1x500000_1 v10
  v11

noncomputable def aggVec (v : (⟨S500000, .f32⟩ : BufTy).Contents (Elt F)) (src : (⟨S16000000, .i32⟩ : BufTy).Contents (Elt F)) (dst : (⟨S16000000, .i32⟩ : BufTy).Contents (Elt F)) : (⟨S500000, .f32⟩ : BufTy).Contents (Elt F) :=
  have c : (⟨S_, .i32⟩ : BufTy).Contents (Elt F) := (constantI S_ 32 0#32)
  have v29 := broadcastInDim S16000000 ![] bcast_S_S16000000 c
  have v30 := cmpi .slt src v29
  have c_8 : (⟨S_, .i32⟩ : BufTy).Contents (Elt F) := (constantI S_ 32 500000#32)
  have v31 := broadcastInDim S16000000 ![] bcast_S_S16000000 c_8
  have v32 := addi src v31
  have v33 := select v30 v32 src
  have v34 := broadcastInDim S16000000x1 ![0] bcast_S16000000_S16000000x1_0 v33
  have v35 := Host.gather gather_S500000_S16000000x1_S16000000_n_0_n_n_0_1_1 v v34
  have cst_9 : (⟨S_, .f32⟩ : BufTy).Contents (Elt F) := (constant S_ .f32 0x00000000#32)
  have v36 := broadcastInDim S500000 ![] bcast_S_S500000 cst_9
  have v37 := broadcastInDim S16000000x1 ![0] bcast_S16000000_S16000000x1_0 dst
  have v38 := Host.scatterAdd scatter_S500000_S16000000x1_S16000000_n_0_0_1 v36 v37 v35
  v38

noncomputable def roundA (h : (⟨S1x500000, .f32⟩ : BufTy).Contents (Elt F)) (ds : (⟨S1x500000, .f32⟩ : BufTy).Contents (Elt F)) (src : (⟨S16000000, .i32⟩ : BufTy).Contents (Elt F)) (dst : (⟨S16000000, .i32⟩ : BufTy).Contents (Elt F)) : (⟨S1x500000, .f32⟩ : BufTy).Contents (Elt F) :=
  broadcastInDim S1x500000 ![1] bcast_S500000_S1x500000_1 (aggVec (shapeCast S500000 (mulf h ds) shapeCasts_S1x500000_S500000) src dst)

noncomputable def roundB (x2 : (⟨S1x500000, .f32⟩ : BufTy).Contents (Elt F)) (h : (⟨S1x500000, .f32⟩ : BufTy).Contents (Elt F)) (dd : (⟨S1x500000, .f32⟩ : BufTy).Contents (Elt F)) (src : (⟨S16000000, .i32⟩ : BufTy).Contents (Elt F)) (dst : (⟨S16000000, .i32⟩ : BufTy).Contents (Elt F)) : (⟨S1x500000, .f32⟩ : BufTy).Contents (Elt F) :=
  addf h (mulf (broadcastInDim S1x500000 ![1] bcast_S500000_S1x500000_1 (aggVec (shapeCast S500000 x2 shapeCasts_S1x500000_S500000) src dst)) dd)

noncomputable def colOfRow (W : (⟨S1x8, .f32⟩ : BufTy).Contents (Elt F)) : (⟨S8x1, .f32⟩ : BufTy).Contents (Elt F) :=
  shapeCast S8x1 W shapeCasts_S1x8_S8x1

noncomputable def colOfVec (b : (⟨S8, .f32⟩ : BufTy).Contents (Elt F)) : (⟨S8x1, .f32⟩ : BufTy).Contents (Elt F) :=
  shapeCast S8x1 b shapeCasts_S8_S8x1

noncomputable def cellOfVec (b : (⟨S1, .f32⟩ : BufTy).Contents (Elt F)) : (⟨S1x1, .f32⟩ : BufTy).Contents (Elt F) :=
  shapeCast S1x1 b shapeCasts_S1_S1x1

noncomputable def cellOfScalar (a : (⟨S_, .f32⟩ : BufTy).Contents (Elt F)) : (⟨S1x1, .f32⟩ : BufTy).Contents (Elt F) :=
  shapeCast S1x1 a shapeCasts_S_S1x1

noncomputable def colOfRowResult (h : (⟨S1x500000, .f32⟩ : BufTy).Contents (Elt F)) : (⟨S500000x1, .f32⟩ : BufTy).Contents (Elt F) :=
  have v139 := shapeCast S500000 h shapeCasts_S1x500000_S500000
  have v140 := broadcastInDim S500000x1 ![0] bcast_S500000_S500000x1_0 v139
  v140

end Cert.KernelIdeal.Fn

end
-- ==== Proof.KerFinal.lean ====
/- What each of the four kernel regions leaves in its output array: every window's block is its whole array, so the one grid point's result is the body's function of the operand arrays and fills the output array. -/
import proofs.«409853_j63763084476519_2_alg».proof.Proof.Gen.KernelIdeal.Frame
import Idealize.ShloMosaic.Lib.Pipeline.Value

noncomputable section

namespace Cert.KernelIdeal.Final

open Cert.KernelIdeal Cert.KernelIdeal.Gen
open Idealize.ShloMosaic Idealize.ShloMosaic.TcCoe Idealize.SL.Sem

variable {F : FTy → Type} [FloatOps F]
variable (V : (c : Dev nD) → (b : Ref sig .tc) → Buf (Elt F) ((c : Thread nD τ).loc b))

/-- In every region every window's block starts at offset (block index) × (block size) = 0 on every axis. -/
theorem off : ∀ (p : Fin 4) (w : Fin (cfgs p).W) (t : Fin (cfgs p).N) a,
    ((cfgs p).win w).index t a * ((cfgs p).win w).size a = 0 := by decide +kernel

/-- A unit-stride rectangle at offset zero with the buffer's own sizes is the whole buffer, so it holds every index. -/
theorem mem_access_unit_zero {κ : Kind} (b : Ref sig κ) {off : Fin b.ty.shape.rank → Nat}
    (h : off = fun _ => 0) (inb : ∀ a, off a + b.ty.shape.size a ≤ b.ty.shape.size a) (i : b.ty.Idx) :
    i ∈ ((Memref.whole b).access (Rect.unit off b.ty.shape.size inb) : View sig κ _ _ _).set := by
  subst h; exact (congrArg (i ∈ ·) (Memref.set_access_whole b)).mpr (Finset.mem_univ i)

theorem final0 (c : Dev nD) :
    (dat0 (F := F) V c).arrAt 12 cfg0.N = out0_12 (V c main_v39) (V c main_v26) (V c main_v11) (V c main_v14) (V c main_v15) (V c main_v16) (V c main_v17) (V c main_v18) (V c main_v19) (V c main_v21) (V c main_arg9) (V c main_v20) :=
  (dat0 V c).arrAt_eq_of_cover 12 _
    (fun t _ => ((after0_12 V c t).trans
        (by congr 1 <;> exact Memref.read_access_unit_zero _ _ (funext fun _ => by apply off 0) _ _)).trans
      (Memref.read_access_unit_zero (Elt F) main_v40 (funext (off 0 (12 : Fin 13) t)) _ _).symm)
    fun i => ⟨t0_0, flush0_12 t0_0, mem_access_unit_zero main_v40 (funext (off 0 (12 : Fin 13) t0_0)) _ i⟩

theorem final1 (c : Dev nD) :
    (dat1 (F := F) V c).arrAt 12 cfg1.N = out1_12 (V c main_v67) (V c main_v54) (V c main_v11) (V c main_v14) (V c main_v15) (V c main_v16) (V c main_v17) (V c main_v18) (V c main_v19) (V c main_v21) (V c main_arg9) (V c main_v20) :=
  (dat1 V c).arrAt_eq_of_cover 12 _
    (fun t _ => ((after1_12 V c t).trans
        (by congr 1 <;> exact Memref.read_access_unit_zero _ _ (funext fun _ => by apply off 1) _ _)).trans
      (Memref.read_access_unit_zero (Elt F) main_v68 (funext (off 1 (12 : Fin 13) t)) _ _).symm)
    fun i => ⟨t1_0, flush1_12 t1_0, mem_access_unit_zero main_v68 (funext (off 1 (12 : Fin 13) t1_0)) _ i⟩

theorem final2 (c : Dev nD) :
    (dat2 (F := F) V c).arrAt 12 cfg2.N = out2_12 (V c main_v95) (V c main_v82) (V c main_v11) (V c main_v14) (V c main_v15) (V c main_v16) (V c main_v17) (V c main_v18) (V c main_v19) (V c main_v21) (V c main_arg9) (V c main_v20) :=
  (dat2 V c).arrAt_eq_of_cover 12 _
    (fun t _ => ((after2_12 V c t).trans
        (by congr 1 <;> exact Memref.read_access_unit_zero _ _ (funext fun _ => by apply off 2) _ _)).trans
      (Memref.read_access_unit_zero (Elt F) main_v96 (funext (off 2 (12 : Fin 13) t)) _ _).symm)
    fun i => ⟨t2_0, flush2_12 t2_0, mem_access_unit_zero main_v96 (funext (off 2 (12 : Fin 13) t2_0)) _ i⟩

theorem final3 (c : Dev nD) :
    (dat3 (F := F) V c).arrAt 12 cfg3.N = out3_12 (V c main_v123) (V c main_v110) (V c main_v11) (V c main_v14) (V c main_v15) (V c main_v16) (V c main_v17) (V c main_v18) (V c main_v19) (V c main_v21) (V c main_arg9) (V c main_v20) :=
  (dat3 V c).arrAt_eq_of_cover 12 _
    (fun t _ => ((after3_12 V c t).trans
        (by congr 1 <;> exact Memref.read_access_unit_zero _ _ (funext fun _ => by apply off 3) _ _)).trans
      (Memref.read_access_unit_zero (Elt F) main_v124 (funext (off 3 (12 : Fin 13) t)) _ _).symm)
    fun i => ⟨t3_0, flush3_12 t3_0, mem_access_unit_zero main_v124 (funext (off 3 (12 : Fin 13) t3_0)) _ i⟩

end Cert.KernelIdeal.Final

end
-- ==== Proof.LibHostRun.lean ====
/- Straight lines of host operations: lists run one after the other are their concatenation run as one; a buffer no operation writes is kept. -/
import Idealize.ShloMosaic.Lib.StableHlo.Run
import Idealize.ShloMosaic.Lib.Pipeline.Regions

noncomputable section

namespace Cert.LibHostRun

open Idealize.ShloMosaic Idealize.SL.Sem Idealize.ShloMosaic.StableHlo

theorem chain_map_seq {nD : Nat} {τ : Topo} {sig : RefSig} {Val : EltTy → Type} {Λ : Labels} :
    ∀ L : List (List (HloOp τ sig Val)),
      Pipeline.chain (L.map fun l => (StableHlo.seq l : Prog (TpuEff nD τ sig Val Λ .tc) PUnit)) = StableHlo.seq L.flatten
  | [] => rfl
  | l :: L => by
      show ((StableHlo.seq l : Prog (TpuEff nD τ sig Val Λ .tc) PUnit) >>= fun _ => Pipeline.chain (L.map fun l => StableHlo.seq l)) = StableHlo.seq (l ++ L.flatten)
      rw [chain_map_seq L, StableHlo.seq_append]

theorem forall_flatten {α : Type} {P : α → Prop} (L : List (List α)) (h : L.Forall fun l => l.Forall P) : L.flatten.Forall P := by
  rw [List.forall_iff_forall_mem] at h ⊢
  intro x hx
  obtain ⟨l, hl, hxl⟩ := List.mem_flatten.mp hx
  exact (List.forall_iff_forall_mem.mp (h l hl)) x hxl

/-- A stretch whose operations write the buffers of a list, one each, changes no buffer outside the list. -/
theorem keep_of {τ : Topo} {sig : RefSig} {Val : EltTy → Type} {ops : List (HloOp τ sig Val)} {W : List (Ref sig .tc)}
    (hW : ops.map HloOp.writes = W.map fun r => {Proc.devRef (τ := τ) .tc r}) (r : Ref sig .tc) (hr : r ∉ W)
    (V : Valuation τ sig Val) : after ops V (Proc.devRef .tc r) = V (Proc.devRef .tc r) :=
  after_of_forall_not_mem ops V fun op hop hm => by
    obtain ⟨y, hy, he⟩ := List.mem_map.mp (hW ▸ List.mem_map_of_mem (f := HloOp.writes) hop)
    rw [← he, Finset.mem_singleton] at hm
    exact hr (Proc.devRef_injective _ hm ▸ hy)

end Cert.LibHostRun

end
-- ==== Proof.KerRun.lean ====
/- The idealized kernel program's run: twelve buffers filled before the first region are written by nothing after it; a region turns the state row into the dense layer's row and the host stretch after it into the next state row. -/
import proofs.«409853_j63763084476519_2_alg».proof.Proof.KerFrameResult
import proofs.«409853_j63763084476519_2_alg».proof.Proof.KerFns
import proofs.«409853_j63763084476519_2_alg».proof.Proof.KerFinal
import proofs.«409853_j63763084476519_2_alg».proof.Proof.LibHostRun

set_option maxRecDepth 16384

noncomputable section

namespace Cert.KernelIdeal.Run

open Cert.KernelIdeal Cert.KernelIdeal.Gen Idealize.ShloMosaic Idealize.ShloMosaic.TcCoe Idealize.SL.Sem
open Idealize.ShloMosaic.StableHlo Cert.LibHostRun

variable {F : FTy → Type} [FloatOps F]
variable (m : (ℓ : Loc nD τ sig) → Buf (Elt F) ℓ) (ρ : Dev nD → PrngReg) (c : Dev nD)

abbrev src : (⟨S16000000, .i32⟩ : BufTy).Contents (Elt F) := m ((c : Thread nD τ).loc main_arg1)
abbrev dst : (⟨S16000000, .i32⟩ : BufTy).Contents (Elt F) := m ((c : Thread nD τ).loc main_arg2)
abbrev ds : (⟨S1x500000, .f32⟩ : BufTy).Contents (Elt F) := Fn.degRow (src m c)
abbrev dd : (⟨S1x500000, .f32⟩ : BufTy).Contents (Elt F) := Fn.degRow (dst m c)
abbrev w1c : (⟨S8x1, .f32⟩ : BufTy).Contents (Elt F) := Fn.colOfRow (m ((c : Thread nD τ).loc main_arg3))
abbrev b1c : (⟨S8x1, .f32⟩ : BufTy).Contents (Elt F) := Fn.colOfVec (m ((c : Thread nD τ).loc main_arg4))
abbrev wrc : (⟨S8x1, .f32⟩ : BufTy).Contents (Elt F) := Fn.colOfRow (m ((c : Thread nD τ).loc main_arg5))
abbrev gc : (⟨S8x1, .f32⟩ : BufTy).Contents (Elt F) := Fn.colOfVec (m ((c : Thread nD τ).loc main_arg6))
abbrev bc : (⟨S8x1, .f32⟩ : BufTy).Contents (Elt F) := Fn.colOfVec (m ((c : Thread nD τ).loc main_arg7))
abbrev ac : (⟨S1x1, .f32⟩ : BufTy).Contents (Elt F) := Fn.cellOfScalar (m ((c : Thread nD τ).loc main_arg8))
abbrev w2 : (⟨S8x1, .f32⟩ : BufTy).Contents (Elt F) := m ((c : Thread nD τ).loc main_arg9)
abbrev b2c : (⟨S1x1, .f32⟩ : BufTy).Contents (Elt F) := Fn.cellOfVec (m ((c : Thread nD τ).loc main_arg10))

def layer (h : (⟨S1x500000, .f32⟩ : BufTy).Contents (Elt F)) : (⟨S1x500000, .f32⟩ : BufTy).Contents (Elt F) :=
  out0_12 (Fn.roundA h (ds m c) (src m c) (dst m c)) h (ds m c) (dd m c) (w1c m c) (b1c m c) (wrc m c) (gc m c) (bc m c) (ac m c) (w2 m c) (b2c m c)

def states : Nat → (⟨S1x500000, .f32⟩ : BufTy).Contents (Elt F)
  | 0 => Fn.h0 (m ((c : Thread nD τ).loc main_arg0))
  | k + 1 => Fn.roundB (layer m c (states k)) (states k) (dd m c) (src m c) (dst m c)

noncomputable def kept : List (Ref sig .tc) :=
  [main_arg1, main_arg2, main_arg9, main_v11, main_v14, main_v15, main_v16, main_v17, main_v18, main_v19, main_v20, main_v21]

/-- Two valuations agree at the edge ends, the degree rows and the parameters. -/
abbrev Same (V V' : Valuation τ sig (Elt F)) : Prop := ∀ b ∈ kept, V (Proc.devRef .tc b) = V' (Proc.devRef .tc b)

theorem Same.trans {V V' V'' : Valuation τ sig (Elt F)} (h : Same V V') (h' : Same V' V'') : Same V V'' :=
  fun b hb => (h b hb).trans (h' b hb)

/-- Region 0 finds the first state row and its messages ready. -/
theorem first : W7 m ρ c (Proc.devRef .tc main_v26) = states m c 0
    ∧ W7 m ρ c (Proc.devRef .tc main_v39) = Fn.roundA (W7 m ρ c (Proc.devRef .tc main_v26)) (ds m c) (src m c) (dst m c) := by
  after_results_simp
  exact ⟨rfl, rfl⟩

/-- The edge ends and the degree rows, at any valuation agreeing with region 0's entry. -/
theorem graph {V : Valuation τ sig (Elt F)} (h : Same V (W7 m ρ c)) :
    V (Proc.devRef .tc main_v11) = ds m c ∧ V (Proc.devRef .tc main_v14) = dd m c ∧ V (Proc.devRef .tc main_arg1) = src m c ∧ V (Proc.devRef .tc main_arg2) = dst m c := by
  rw [h main_v11 (by decide), h main_v14 (by decide), h main_arg1 (by decide), h main_arg2 (by decide)]
  after_results_simp
  exact ⟨rfl, rfl, trivial, trivial⟩

/-- The parameters, likewise. -/
theorem params {V : Valuation τ sig (Elt F)} (h : Same V (W7 m ρ c)) :
    V (Proc.devRef .tc main_v15) = w1c m c ∧ V (Proc.devRef .tc main_v16) = b1c m c ∧ V (Proc.devRef .tc main_v17) = wrc m c ∧ V (Proc.devRef .tc main_v18) = gc m c ∧ V (Proc.devRef .tc main_v19) = bc m c ∧ V (Proc.devRef .tc main_v21) = ac m c ∧ V (Proc.devRef .tc main_arg9) = w2 m c ∧ V (Proc.devRef .tc main_v20) = b2c m c := by
  rw [h main_v15 (by decide), h main_v16 (by decide), h main_v17 (by decide), h main_v18 (by decide), h main_v19 (by decide), h main_v21 (by decide), h main_arg9 (by decide), h main_v20 (by decide)]
  after_results_simp
  exact ⟨rfl, rfl, rfl, rfl, rfl, rfl, trivial, rfl⟩

/-- A stretch that writes none of the kept buffers leaves them as they were. -/
theorem same_of {ops : List (HloOp τ sig (Elt F))} {W : List (Ref sig .tc)}
    (hW : ops.map HloOp.writes = W.map fun r => {Proc.devRef (τ := τ) .tc r}) (hK : ∀ b ∈ kept, b ∉ W)
    (V : Valuation τ sig (Elt F)) : Same (after ops V) V :=
  fun b hb => keep_of hW b (hK b hb) V

theorem hs1 (V : Valuation τ sig (Elt F)) :
    after hostOps1 V (Proc.devRef .tc main_v54) = Fn.roundB (V (Proc.devRef .tc main_v40)) (V (Proc.devRef .tc main_v26)) (V (Proc.devRef .tc main_v14)) (V (Proc.devRef .tc main_arg1)) (V (Proc.devRef .tc main_arg2))
    ∧ after hostOps1 V (Proc.devRef .tc main_v67) = Fn.roundA (after hostOps1 V (Proc.devRef .tc main_v54)) (V (Proc.devRef .tc main_v11)) (V (Proc.devRef .tc main_arg1)) (V (Proc.devRef .tc main_arg2)) := by
  after_results_simp
  exact ⟨rfl, rfl⟩
theorem same1 (V : Valuation τ sig (Elt F)) : Same (after hostOps1 V) V :=
  same_of (W := [main_v41, main_c_10, main_v42, main_v43, main_c_11, main_v44, main_v45, main_v46, main_v47, main_v48, main_cst_12, main_v49, main_v50, main_v51, main_v52, main_v53, main_v54, main_v55, main_v56, main_c_13, main_v57, main_v58, main_c_14, main_v59, main_v60, main_v61, main_v62, main_v63, main_cst_15, main_v64, main_v65, main_v66, main_v67]) rfl (by decide) V
theorem hs2 (V : Valuation τ sig (Elt F)) :
    after hostOps2 V (Proc.devRef .tc main_v82) = Fn.roundB (V (Proc.devRef .tc main_v68)) (V (Proc.devRef .tc main_v54)) (V (Proc.devRef .tc main_v14)) (V (Proc.devRef .tc main_arg1)) (V (Proc.devRef .tc main_arg2))
    ∧ after hostOps2 V (Proc.devRef .tc main_v95) = Fn.roundA (after hostOps2 V (Proc.devRef .tc main_v82)) (V (Proc.devRef .tc main_v11)) (V (Proc.devRef .tc main_arg1)) (V (Proc.devRef .tc main_arg2)) := by
  after_results_simp
  exact ⟨rfl, rfl⟩
theorem same2 (V : Valuation τ sig (Elt F)) : Same (after hostOps2 V) V :=
  same_of (W := [main_v69, main_c_16, main_v70, main_v71, main_c_17, main_v72, main_v73, main_v74, main_v75, main_v76, main_cst_18, main_v77, main_v78, main_v79, main_v80, main_v81, main_v82, main_v83, main_v84, main_c_19, main_v85, main_v86, main_c_20, main_v87, main_v88, main_v89, main_v90, main_v91, main_cst_21, main_v92, main_v93, main_v94, main_v95]) rfl (by decide) V
theorem hs3 (V : Valuation τ sig (Elt F)) :
    after hostOps3 V (Proc.devRef .tc main_v110) = Fn.roundB (V (Proc.devRef .tc main_v96)) (V (Proc.devRef .tc main_v82)) (V (Proc.devRef .tc main_v14)) (V (Proc.devRef .tc main_arg1)) (V (Proc.devRef .tc main_arg2))
    ∧ after hostOps3 V (Proc.devRef .tc main_v123) = Fn.roundA (after hostOps3 V (Proc.devRef .tc main_v110)) (V (Proc.devRef .tc main_v11)) (V (Proc.devRef .tc main_arg1)) (V (Proc.devRef .tc main_arg2)) := by
  after_results_simp
  exact ⟨rfl, rfl⟩
theorem same3 (V : Valuation τ sig (Elt F)) : Same (after hostOps3 V) V :=
  same_of (W := [main_v97, main_c_22, main_v98, main_v99, main_c_23, main_v100, main_v101, main_v102, main_v103, main_v104, main_cst_24, main_v105, main_v106, main_v107, main_v108, main_v109, main_v110, main_v111, main_v112, main_c_25, main_v113, main_v114, main_c_26, main_v115, main_v116, main_v117, main_v118, main_v119, main_cst_27, main_v120, main_v121, main_v122, main_v123]) rfl (by decide) V

theorem hs4 (V : Valuation τ sig (Elt F)) : after hostOps4 V (Proc.devRef .tc main_v140) = Fn.colOfRowResult (Fn.roundB (V (Proc.devRef .tc main_v124)) (V (Proc.devRef .tc main_v110)) (V (Proc.devRef .tc main_v14)) (V (Proc.devRef .tc main_arg1)) (V (Proc.devRef .tc main_arg2))) := by
  after_results_simp; rfl

/-- A region changes its output array only: any other buffer is none of its arrays, or an input. -/
theorem region_keep {n : Nat} {arr : Fin n → Ref sig .tc} {X E : Valuation τ sig (Elt F)} (o : Fin n)
    (hin : ∀ w, w ≠ o → X (Proc.devRef .tc (arr w)) = E (Proc.devRef .tc (arr w)))
    (hne : ∀ b, (∀ w, arr w ≠ b) → X (Proc.devRef .tc b) = E (Proc.devRef .tc b))
    (b : Ref sig .tc) (hb : b ≠ arr o) : X (Proc.devRef .tc b) = E (Proc.devRef .tc b) := by
  by_cases h : ∃ w, arr w = b
  · obtain ⟨w, rfl⟩ := h
    exact hin w fun e => hb (congrArg arr e)
  · exact hne b fun w e => h ⟨w, e⟩

theorem keep8 (b : Ref sig .tc) (hb : b ≠ main_v40) : W8 m ρ c (Proc.devRef .tc b) = W7 m ρ c (Proc.devRef .tc b) :=
  region_keep (arr := Pipeline.arrRef spec0) 12 (fun w hw => (W8_arr m ρ c w).trans
    (((dat0 (V7 m ρ) c).arrAt_in w (by revert w; decide) _).trans (A_eq0 (V7 m ρ) c w))) (W8_of_ne m ρ c) b hb
theorem keep10 (b : Ref sig .tc) (hb : b ≠ main_v68) : W10 m ρ c (Proc.devRef .tc b) = W9 m ρ c (Proc.devRef .tc b) :=
  region_keep (arr := Pipeline.arrRef spec1) 12 (fun w hw => (W10_arr m ρ c w).trans
    (((dat1 (V9 m ρ) c).arrAt_in w (by revert w; decide) _).trans (A_eq1 (V9 m ρ) c w))) (W10_of_ne m ρ c) b hb
theorem keep12 (b : Ref sig .tc) (hb : b ≠ main_v96) : W12 m ρ c (Proc.devRef .tc b) = W11 m ρ c (Proc.devRef .tc b) :=
  region_keep (arr := Pipeline.arrRef spec2) 12 (fun w hw => (W12_arr m ρ c w).trans
    (((dat2 (V11 m ρ) c).arrAt_in w (by revert w; decide) _).trans (A_eq2 (V11 m ρ) c w))) (W12_of_ne m ρ c) b hb
theorem keep14 (b : Ref sig .tc) (hb : b ≠ main_v124) : W14 m ρ c (Proc.devRef .tc b) = W13 m ρ c (Proc.devRef .tc b) :=
  region_keep (arr := Pipeline.arrRef spec3) 12 (fun w hw => (W14_arr m ρ c w).trans
    (((dat3 (V13 m ρ) c).arrAt_in w (by revert w; decide) _).trans (A_eq3 (V13 m ρ) c w))) (W14_of_ne m ρ c) b hb

/-- A region's exit: the twelve as at its entry `E`, the state row kept, the output array at the layer's row. -/
theorem exit (k : Nat) {E X : Valuation τ sig (Elt F)} {vs va vs' vo : (⟨S1x500000, .f32⟩ : BufTy).Contents (Elt F)}
    (hE : Same E (W7 m ρ c)) (hs : vs = states m c k) (ha : va = Fn.roundA vs (ds m c) (src m c) (dst m c))
    (hk : Same X E) (hs' : vs' = vs) (ho : vo = out0_12 va vs (E (Proc.devRef .tc main_v11)) (E (Proc.devRef .tc main_v14)) (E (Proc.devRef .tc main_v15)) (E (Proc.devRef .tc main_v16)) (E (Proc.devRef .tc main_v17)) (E (Proc.devRef .tc main_v18)) (E (Proc.devRef .tc main_v19)) (E (Proc.devRef .tc main_v21)) (E (Proc.devRef .tc main_arg9)) (E (Proc.devRef .tc main_v20))) :
    Same X (W7 m ρ c) ∧ vs' = states m c k ∧ vo = layer m c (states m c k) := by
  obtain ⟨e11, e14, -, -⟩ := graph m ρ c hE
  obtain ⟨e15, e16, e17, e18, e19, e21, e9, e20⟩ := params m ρ c hE
  rw [e11, e14, e15, e16, e17, e18, e19, e21, e9, e20, ha, hs] at ho
  exact ⟨hk.trans hE, hs'.trans hs, ho⟩

/-- One round: from a region's exit `X` through the host stretch to the next region's entry `E` and exit `X'`. -/
theorem round (k : Nat) {X E X' : Valuation τ sig (Elt F)} {vs vo vs' va' vs'' vo' : (⟨S1x500000, .f32⟩ : BufTy).Contents (Elt F)}
    (hX : Same X (W7 m ρ c) ∧ vs = states m c k ∧ vo = layer m c (states m c k))
    (hE : vs' = Fn.roundB vo vs (X (Proc.devRef .tc main_v14)) (X (Proc.devRef .tc main_arg1)) (X (Proc.devRef .tc main_arg2))
      ∧ va' = Fn.roundA vs' (X (Proc.devRef .tc main_v11)) (X (Proc.devRef .tc main_arg1)) (X (Proc.devRef .tc main_arg2))) (hEX : Same E X)
    (hk : Same X' E) (hs'' : vs'' = vs') (ho : vo' = out0_12 va' vs' (E (Proc.devRef .tc main_v11)) (E (Proc.devRef .tc main_v14)) (E (Proc.devRef .tc main_v15)) (E (Proc.devRef .tc main_v16)) (E (Proc.devRef .tc main_v17)) (E (Proc.devRef .tc main_v18)) (E (Proc.devRef .tc main_v19)) (E (Proc.devRef .tc main_v21)) (E (Proc.devRef .tc main_arg9)) (E (Proc.devRef .tc main_v20))) :
    Same X' (W7 m ρ c) ∧ vs'' = states m c (k + 1) ∧ vo' = layer m c (states m c (k + 1)) := by
  obtain ⟨hK, rfl, rfl⟩ := hX
  obtain ⟨hs', ha'⟩ := hE
  obtain ⟨x11, x14, x1, x2⟩ := graph m ρ c hK
  rw [x14, x1, x2] at hs'
  rw [x11, x1, x2] at ha'
  exact exit m ρ c (k + 1) (hEX.trans hK) hs' ha' hk hs'' ho

theorem at8 : Same (W8 m ρ c) (W7 m ρ c) ∧ W8 m ρ c (Proc.devRef .tc main_v26) = states m c 0 ∧ W8 m ρ c (Proc.devRef .tc main_v40) = layer m c (states m c 0) :=
  exit m ρ c 0 (fun _ _ => rfl) (first m ρ c).1 (first m ρ c).2 (fun b hb => keep8 m ρ c b (ne_of_mem_of_not_mem hb (by decide)))
    (keep8 m ρ c main_v26 (by decide)) ((W8_arr m ρ c 12).trans (Cert.KernelIdeal.Final.final0 (V7 m ρ) c))
theorem at10 : Same (W10 m ρ c) (W7 m ρ c) ∧ W10 m ρ c (Proc.devRef .tc main_v54) = states m c 1 ∧ W10 m ρ c (Proc.devRef .tc main_v68) = layer m c (states m c 1) :=
  round m ρ c 0 (at8 m ρ c) (hs1 (W8 m ρ c)) (same1 (W8 m ρ c)) (fun b hb => keep10 m ρ c b (ne_of_mem_of_not_mem hb (by decide)))
    (keep10 m ρ c main_v54 (by decide)) ((W10_arr m ρ c 12).trans (Cert.KernelIdeal.Final.final1 (V9 m ρ) c))
theorem at12 : Same (W12 m ρ c) (W7 m ρ c) ∧ W12 m ρ c (Proc.devRef .tc main_v82) = states m c 2 ∧ W12 m ρ c (Proc.devRef .tc main_v96) = layer m c (states m c 2) :=
  round m ρ c 1 (at10 m ρ c) (hs2 (W10 m ρ c)) (same2 (W10 m ρ c)) (fun b hb => keep12 m ρ c b (ne_of_mem_of_not_mem hb (by decide)))
    (keep12 m ρ c main_v82 (by decide)) ((W12_arr m ρ c 12).trans (Cert.KernelIdeal.Final.final2 (V11 m ρ) c))
theorem at14 : Same (W14 m ρ c) (W7 m ρ c) ∧ W14 m ρ c (Proc.devRef .tc main_v110) = states m c 3 ∧ W14 m ρ c (Proc.devRef .tc main_v124) = layer m c (states m c 3) :=
  round m ρ c 2 (at12 m ρ c) (hs3 (W12 m ρ c)) (same3 (W12 m ρ c)) (fun b hb => keep14 m ρ c b (ne_of_mem_of_not_mem hb (by decide)))
    (keep14 m ρ c main_v110 (by decide)) ((W14_arr m ρ c 12).trans (Cert.KernelIdeal.Final.final3 (V13 m ρ) c))

theorem W15_result : W15 m ρ c (Proc.devRef .tc main_v140) = Fn.colOfRowResult (states m c 4) := by
  obtain ⟨hK, hs, ho⟩ := at14 m ρ c
  obtain ⟨-, x14, x1, x2⟩ := graph m ρ c hK
  show after hostOps4 (W14 m ρ c) (Proc.devRef .tc main_v140) = _
  rw [hs4, ho, hs, x14, x1, x2]; rfl

theorem run : θ_run defs (onTc (τ := τ) (main (F := F))) ⟨m, fun _ => 0, ρ⟩ (fun r => ∀ c : Dev nD,
      r.2.mem ((c.tc : Thread nD τ).loc main_v140) = Fn.colOfRowResult (states m c 4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1.trans (W15_result m ρ c), (h c).2⟩) (Cert.KernelIdeal.GenResult.frame_result m ρ)

end Cert.KernelIdeal.Run

end
-- ==== Proof.RefOps.lean ====
/- The idealized reference's @main as lists of its host operations in order, outlined functions written at their call sites, and the equation saying @main is those lists run in order. -/
import proofs.«409853_j63763084476519_2_alg».proof.Proof.Gen.ReferenceIdeal
import Idealize.ShloMosaic.Lib.StableHlo.Run
import Idealize.ShloMosaic.Lib.Pipeline.Regions

noncomputable section

namespace Cert.ReferenceIdeal.RunOps

open Cert.ReferenceIdeal Cert.ReferenceIdeal.Gen Idealize.ShloMosaic Idealize.ShloMosaic.TcCoe Idealize.SL.Sem

variable {F : FTy → Type} [FloatOps F]

abbrev w0_i0 : List (HloOp τ sig (Elt F)) :=
  [ StableHlo.nullary main_cst (constant S_ .f32 0x3F800000#32),
    StableHlo.unary main_cst main_v0 (broadcastInDim S16000000 ![] bcast_S_S16000000),
    StableHlo.nullary main_cst_0 (constant S_ .f32 0x00000000#32),
    StableHlo.unary main_cst_0 main_v1 (broadcastInDim S500000 ![] bcast_S_S500000),
    StableHlo.unary main_arg1 main_v2 (broadcastInDim S16000000x1 ![0] bcast_S16000000_S16000000x1_0),
    StableHlo.ternary main_v1 main_v2 main_v0 main_v3 (Host.scatterAdd scatter_S500000_S16000000x1_S16000000_n_0_0_1),
    StableHlo.nullary main_cst_1 (constant S_ .f32 0x3F800000#32) ]
abbrev w0_i1 : List (HloOp τ sig (Elt F)) :=
  [ StableHlo.TRef.unary (.of main_cst_1 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S500000, .f32⟩) (broadcastInDim S500000 ![] bcast_S_S500000),
    StableHlo.TRef.binary (.of main_call0_v1 : StableHlo.TRef sig ⟨S500000, .f32⟩) (.of main_v3 : StableHlo.TRef sig ⟨S500000, .f32⟩) (.of main_v4 : StableHlo.TRef sig ⟨S500000, .f32⟩) maximumf ]
abbrev w0_i2 : List (HloOp τ sig (Elt F)) :=
  [ StableHlo.nullary main_cst_2 (constant S_ .f32 0x00000000#32),
    StableHlo.unary main_cst_2 main_v5 (broadcastInDim S500000 ![] bcast_S_S500000),
    StableHlo.unary main_arg2 main_v6 (broadcastInDim S16000000x1 ![0] bcast_S16000000_S16000000x1_0),
    StableHlo.ternary main_v5 main_v6 main_v0 main_v7 (Host.scatterAdd scatter_S500000_S16000000x1_S16000000_n_0_0_1),
    StableHlo.nullary main_cst_3 (constant S_ .f32 0x3F800000#32) ]
abbrev w0_i3 : List (HloOp τ sig (Elt F)) :=
  [ StableHlo.TRef.unary (.of main_cst_3 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S500000, .f32⟩) (broadcastInDim S500000 ![] bcast_S_S500000),
    StableHlo.TRef.binary (.of main_call1_v1 : StableHlo.TRef sig ⟨S500000, .f32⟩) (.of main_v7 : StableHlo.TRef sig ⟨S500000, .f32⟩) (.of main_v8 : StableHlo.TRef sig ⟨S500000, .f32⟩) maximumf ]
abbrev w0_i4 : List (HloOp τ sig (Elt F)) :=
  [ StableHlo.nullary main_cst_4 (constant S_ .f32 0xBF000000#32),
    StableHlo.unary main_cst_4 main_v9 (broadcastInDim S500000 ![] bcast_S_S500000),
    StableHlo.binary main_v4 main_v9 main_v10 (Host.powf),
    StableHlo.unary main_v10 main_v11 (broadcastInDim S500000x1 ![0] bcast_S500000_S500000x1_0),
    StableHlo.nullary main_cst_5 (constant S_ .f32 0xBF000000#32),
    StableHlo.unary main_cst_5 main_v12 (broadcastInDim S500000 ![] bcast_S_S500000),
    StableHlo.binary main_v8 main_v12 main_v13 (Host.powf),
    StableHlo.unary main_v13 main_v14 (broadcastInDim S500000x1 ![0] bcast_S500000_S500000x1_0),
    StableHlo.nullary main_cst_6 (constant S_ .f32 0x00000000#32),
    StableHlo.unary main_cst_6 main_v15 (broadcastInDim S500000x1 ![] bcast_S_S500000x1),
    StableHlo.binary main_arg0 main_v15 main_v16 (cmpf .oeq),
    StableHlo.nullary main_cst_7 (constant S_ .f32 0xBF800000#32) ]
abbrev w0_i5 : List (HloOp τ sig (Elt F)) :=
  [ StableHlo.TRef.unary (.of main_cst_7 : StableHlo.TRef sig ⟨S_, .f32⟩) (.of main_call2_v0 : StableHlo.TRef sig ⟨S500000x1, .f32⟩) (broadcastInDim S500000x1 ![] bcast_S_S500000x1),
    StableHlo.TRef.ternary (.of main_v16 : StableHlo.TRef sig ⟨S500000x1, .i1⟩) (.of main_call2_v0 : StableHlo.TRef sig ⟨S500000x1, .f32⟩) (.of main_arg0 : StableHlo.TRef sig ⟨S500000x1, .f32⟩) (.of main_v17 : StableHlo.TRef sig ⟨S500000x1, .f32⟩) select ]
abbrev w0_i6 : List (HloOp τ sig (Elt F)) :=
  [ StableHlo.binary main_v17 main_v11 main_v18 (mulf),
    StableHlo.nullary main_c (constantI S_ 32 0#32),
    StableHlo.unary main_c main_v19 (broadcastInDim S16000000 ![] bcast_S_S16000000),
    StableHlo.binary main_arg1 main_v19 main_v20 (cmpi .slt),
    StableHlo.nullary main_c_8 (constantI S_ 32 500000#32),
    StableHlo.unary main_c_8 main_v21 (broadcastInDim S16000000 ![] bcast_S_S16000000),
    StableHlo.binary main_arg1 main_v21 main_v22 (addi),
    StableHlo.ternary main_v20 main_v22 main_arg1 main_v23 (select),
    StableHlo.unary main_v23 main_v24 (broadcastInDim S16000000x1 ![0] bcast_S16000000_S16000000x1_0),
    StableHlo.binary main_v18 main_v24 main_v25 ((fun x i => Host.gather gather_S500000x1_S16000000x1_S16000000x1_1_0_n_n_0_1_11 x i)),
    StableHlo.nullary main_cst_9 (constant S_ .f32 0x00000000#32),
    StableHlo.unary main_cst_9 main_v26 (broadcastInDim S500000x1 ![] bcast_S_S500000x1),
    StableHlo.unary main_arg2 main_v27 (broadcastInDim S16000000x1 ![0] bcast_S16000000_S16000000x1_0),
    StableHlo.ternary main_v26 main_v27 main_v25 main_v28 (Host.scatterAdd scatter_S500000x1_S16000000x1_S16000000x1_1_0_0_1) ]
abbrev w0_i7 : List (HloOp τ sig (Elt F)) :=
  [ StableHlo.binary main_v28 main_arg3 main_v29 ((fun l r => Host.dotGeneral dot_S500000x1_S1x8_S500000x8_1_0_0_1_n_n none l r)),
    StableHlo.unary main_arg4 main_v30 (broadcastInDim S1x8 ![1] bcast_S8_S1x8_1),
    StableHlo.unary main_v30 main_v31 (broadcastInDim S500000x8 ![0, 1] bcast_S1x8_S500000x8_0_1),
    StableHlo.binary main_v29 main_v31 main_v32 (addf),
    StableHlo.unary main_v14 main_v33 (broadcastInDim S500000x8 ![0, 1] bcast_S500000x1_S500000x8_0_1),
    StableHlo.binary main_v32 main_v33 main_v34 (mulf),
    StableHlo.binary main_v17 main_arg5 main_v35 ((fun l r => Host.dotGeneral dot_S500000x1_S1x8_S500000x8_1_0_0_1_n_n none l r)),
    StableHlo.binary main_v34 main_v35 main_v36 (addf) ]
abbrev w0_i8 : List (HloOp τ sig (Elt F)) :=
  [ StableHlo.nullary main_cst_10 (constant S_ .f32 0x00000000#32),
    StableHlo.binary main_v36 main_cst_10 main_v37 ((fun x v => Host.reduceAdd x v reducesTo_S500000x8_S500000_d1 h_S_)),
    StableHlo.unary main_v37 main_v38 (broadcastInDim S500000x1 ![0] bcast_S500000_S500000x1_0),
    StableHlo.nullary main_cst_11 (constant S_ .f32 0x41000000#32),
    StableHlo.unary main_cst_11 main_v39 (broadcastInDim S500000x1 ![] bcast_S_S500000x1),
    StableHlo.binary main_v38 main_v39 main_v40 (Host.divf),
    StableHlo.nullary main_c_12 (constantI S_ 32 0#32) ]
abbrev w0_i9 : List (HloOp τ sig (Elt F)) :=
  [ StableHlo.TRef.nullary (.of main_call3_cst : StableHlo.TRef sig ⟨S_, .f32⟩) (constant S_ .f32 0x00000000#32),
    StableHlo.TRef.binary (.of main_v36 : StableHlo.TRef sig ⟨S500000x8, .f32⟩) (.of main_call3_cst : StableHlo.TRef sig ⟨S_, .f32⟩) (.of main_call3_v0 : StableHlo.TRef sig ⟨S500000, .f32⟩) (fun x v => Host.reduceAdd x v reducesTo_S500000x8_S500000_d1 h_S_),
    StableHlo.TRef.unary (.of main_call3_v0 : StableHlo.TRef sig ⟨S500000, .f32⟩) (.of main_call3_v1 : StableHlo.TRef sig ⟨S500000x1, .f32⟩) (broadcastInDim S500000x1 ![0] bcast_S500000_S500000x1_0),
    StableHlo.TRef.nullary (.of main_call3_cst_0 : StableHlo.TRef sig ⟨S_, .f32⟩) (constant S_ .f32 0x41000000#32),
    StableHlo.TRef.unary (.of main_call3_cst_0 : StableHlo.TRef sig ⟨S_, .f32⟩) (.of main_call3_v2 : StableHlo.TRef sig ⟨S500000x1, .f32⟩) (broadcastInDim S500000x1 ![] bcast_S_S500000x1),
    StableHlo.TRef.binary (.of main_call3_v1 : StableHlo.TRef sig ⟨S500000x1, .f32⟩) (.of main_call3_v2 : StableHlo.TRef sig ⟨S500000x1, .f32⟩) (.of main_call3_v3 : StableHlo.TRef sig ⟨S500000x1, .f32⟩) Host.divf,
    StableHlo.TRef.unary (.of main_call3_v3 : StableHlo.TRef sig ⟨S500000x1, .f32⟩) (.of main_call3_v4 : StableHlo.TRef sig ⟨S500000x8, .f32⟩) (broadcastInDim S500000x8 ![0, 1] bcast_S500000x1_S500000x8_0_1),
    StableHlo.TRef.binary (.of main_v36 : StableHlo.TRef sig ⟨S500000x8, .f32⟩) (.of main_call3_v4 : StableHlo.TRef sig ⟨S500000x8, .f32⟩) (.of main_call3_v5 : StableHlo.TRef sig ⟨S500000x8, .f32⟩) subf,
    StableHlo.TRef.binary (.of main_call3_v5 : StableHlo.TRef sig ⟨S500000x8, .f32⟩) (.of main_call3_v5 : StableHlo.TRef sig ⟨S500000x8, .f32⟩) (.of main_call3_v6 : StableHlo.TRef sig ⟨S500000x8, .f32⟩) mulf,
    StableHlo.TRef.unary (.of main_c_12 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x41000000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S500000x8, .f32⟩) (.of main_call3_cst_2 : StableHlo.TRef sig ⟨S_, .f32⟩) (.of main_call3_v9 : StableHlo.TRef sig ⟨S500000, .f32⟩) (fun x v => Host.reduceAdd x v reducesTo_S500000x8_S500000_d1 h_S_),
    StableHlo.TRef.unary (.of main_call3_v9 : StableHlo.TRef sig ⟨S500000, .f32⟩) (.of main_call3_v10 : StableHlo.TRef sig ⟨S500000x1, .f32⟩) (broadcastInDim S500000x1 ![0] bcast_S500000_S500000x1_0),
    StableHlo.TRef.unary (.of main_call3_v8 : StableHlo.TRef sig ⟨S_, .f32⟩) (.of main_call3_v11 : StableHlo.TRef sig ⟨S500000x1, .f32⟩) (broadcastInDim S500000x1 ![] bcast_S_S500000x1),
    StableHlo.TRef.binary (.of main_call3_v10 : StableHlo.TRef sig ⟨S500000x1, .f32⟩) (.of main_call3_v11 : StableHlo.TRef sig ⟨S500000x1, .f32⟩) (.of main_call3_v12 : StableHlo.TRef sig ⟨S500000x1, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v13 : StableHlo.TRef sig ⟨S_, .i1⟩) (cmpf .ogt),
    StableHlo.TRef.nullary (.of main_call3_cst_4 : StableHlo.TRef sig ⟨S_, .f32⟩) (constant S_ .f32 0x7FC00000#32) ]
abbrev w0_i10 : List (HloOp τ sig (Elt F)) :=
  [ StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S500000x1, .f32⟩) (broadcastInDim S500000x1 ![] bcast_S_S500000x1),
    StableHlo.TRef.ternary (.of main_call3_v13 : StableHlo.TRef sig ⟨S_, .i1⟩) (.of main_call3_v12 : StableHlo.TRef sig ⟨S500000x1, .f32⟩) (.of main_call3_call0_v1 : StableHlo.TRef sig ⟨S500000x1, .f32⟩) (.of main_v41 : StableHlo.TRef sig ⟨S500000x1, .f32⟩) (fun p a b => select (broadcastInDim S500000x1 ![] bcast_S_S500000x1 p) a b) ]
abbrev w0_i11 : List (HloOp τ sig (Elt F)) :=
  [ StableHlo.unary main_v40 main_v42 (broadcastInDim S500000x8 ![0, 1] bcast_S500000x1_S500000x8_0_1),
    StableHlo.binary main_v36 main_v42 main_v43 (subf),
    StableHlo.nullary main_cst_13 (constant S_ .f32 0x3727C5AC#32) ]
theorem main_part0_chain (c : Dev nD) : main_part0 (F := F) c = (Pipeline.chainK
  [ StableHlo.seq w0_i0,
    StableHlo.seq w0_i1,
    StableHlo.seq w0_i2,
    StableHlo.seq w0_i3,
    StableHlo.seq w0_i4,
    StableHlo.seq w0_i5,
    StableHlo.seq w0_i6,
    StableHlo.seq w0_i7,
    StableHlo.seq w0_i8,
    StableHlo.seq w0_i9,
    StableHlo.seq w0_i10 ]
  (StableHlo.seq w0_i11) : Prog (TpuEff nD τ sig (Elt F) (Pipeline.Sig Λ₀ (Fin 0) fun p => (pcfgs (F := F) p).Adm) .tc) PUnit) := by
  chain_rfl

abbrev w1_i0 : List (HloOp τ sig (Elt F)) :=
  [ StableHlo.unary main_cst_13 main_v44 (broadcastInDim S500000x1 ![] bcast_S_S500000x1),
    StableHlo.binary main_v41 main_v44 main_v45 (addf),
    StableHlo.unary main_v45 main_v46 (Host.rsqrt),
    StableHlo.unary main_v46 main_v47 (broadcastInDim S500000x8 ![0, 1] bcast_S500000x1_S500000x8_0_1),
    StableHlo.binary main_v43 main_v47 main_v48 (mulf),
    StableHlo.unary main_arg6 main_v49 (broadcastInDim S1x8 ![1] bcast_S8_S1x8_1),
    StableHlo.unary main_v49 main_v50 (broadcastInDim S500000x8 ![0, 1] bcast_S1x8_S500000x8_0_1),
    StableHlo.binary main_v48 main_v50 main_v51 (mulf),
    StableHlo.unary main_arg7 main_v52 (broadcastInDim S1x8 ![1] bcast_S8_S1x8_1),
    StableHlo.unary main_v52 main_v53 (broadcastInDim S500000x8 ![0, 1] bcast_S1x8_S500000x8_0_1),
    StableHlo.binary main_v51 main_v53 main_v54 (addf) ]
abbrev w1_i1 : List (HloOp τ sig (Elt F)) :=
  [ StableHlo.nullary main_cst_14 (constant S_ .f32 0x00000000#32),
    StableHlo.unary main_cst_14 main_v55 (broadcastInDim S500000x8 ![] bcast_S_S500000x8),
    StableHlo.binary main_v54 main_v55 main_v56 (cmpf .oge),
    StableHlo.unary main_arg8 main_v57 (broadcastInDim S500000x8 ![] bcast_S_S500000x8),
    StableHlo.binary main_v57 main_v54 main_v58 (mulf) ]
abbrev w1_i2 : List (HloOp τ sig (Elt F)) :=
  [ StableHlo.TRef.ternary (.of main_v56 : StableHlo.TRef sig ⟨S500000x8, .i1⟩) (.of main_v54 : StableHlo.TRef sig ⟨S500000x8, .f32⟩) (.of main_v58 : StableHlo.TRef sig ⟨S500000x8, .f32⟩) (.of main_v59 : StableHlo.TRef sig ⟨S500000x8, .f32⟩) select ]
abbrev w1_i3 : List (HloOp τ sig (Elt F)) :=
  [ StableHlo.unary main_v11 main_v60 (broadcastInDim S500000x8 ![0, 1] bcast_S500000x1_S500000x8_0_1),
    StableHlo.binary main_v59 main_v60 main_v61 (mulf),
    StableHlo.binary main_v61 main_arg9 main_v62 ((fun l r => Host.dotGeneral dot_S500000x8_S8x1_S500000x1_1_0_0_1_n_n none l r)),
    StableHlo.unary main_arg10 main_v63 (broadcastInDim S1x1 ![1] bcast_S1_S1x1_1),
    StableHlo.unary main_v63 main_v64 (broadcastInDim S500000x1 ![0, 1] bcast_S1x1_S500000x1_0_1),
    StableHlo.binary main_v62 main_v64 main_v65 (addf) ]
abbrev w1_i4 : List (HloOp τ sig (Elt F)) :=
  [ StableHlo.nullary main_c_15 (constantI S_ 32 0#32),
    StableHlo.unary main_c_15 main_v66 (broadcastInDim S16000000 ![] bcast_S_S16000000),
    StableHlo.binary main_arg1 main_v66 main_v67 (cmpi .slt),
    StableHlo.nullary main_c_16 (constantI S_ 32 500000#32),
    StableHlo.unary main_c_16 main_v68 (broadcastInDim S16000000 ![] bcast_S_S16000000),
    StableHlo.binary main_arg1 main_v68 main_v69 (addi),
    StableHlo.ternary main_v67 main_v69 main_arg1 main_v70 (select),
    StableHlo.unary main_v70 main_v71 (broadcastInDim S16000000x1 ![0] bcast_S16000000_S16000000x1_0),
    StableHlo.binary main_v65 main_v71 main_v72 ((fun x i => Host.gather gather_S500000x1_S16000000x1_S16000000x1_1_0_n_n_0_1_11 x i)),
    StableHlo.nullary main_cst_17 (constant S_ .f32 0x00000000#32),
    StableHlo.unary main_cst_17 main_v73 (broadcastInDim S500000x1 ![] bcast_S_S500000x1),
    StableHlo.unary main_arg2 main_v74 (broadcastInDim S16000000x1 ![0] bcast_S16000000_S16000000x1_0),
    StableHlo.ternary main_v73 main_v74 main_v72 main_v75 (Host.scatterAdd scatter_S500000x1_S16000000x1_S16000000x1_1_0_0_1),
    StableHlo.binary main_v75 main_v14 main_v76 (mulf),
    StableHlo.binary main_v17 main_v76 main_v77 (addf) ]
abbrev w1_i5 : List (HloOp τ sig (Elt F)) :=
  [ StableHlo.binary main_v77 main_v11 main_v78 (mulf),
    StableHlo.nullary main_c_18 (constantI S_ 32 0#32),
    StableHlo.unary main_c_18 main_v79 (broadcastInDim S16000000 ![] bcast_S_S16000000),
    StableHlo.binary main_arg1 main_v79 main_v80 (cmpi .slt),
    StableHlo.nullary main_c_19 (constantI S_ 32 500000#32),
    StableHlo.unary main_c_19 main_v81 (broadcastInDim S16000000 ![] bcast_S_S16000000),
    StableHlo.binary main_arg1 main_v81 main_v82 (addi),
    StableHlo.ternary main_v80 main_v82 main_arg1 main_v83 (select),
    StableHlo.unary main_v83 main_v84 (broadcastInDim S16000000x1 ![0] bcast_S16000000_S16000000x1_0),
    StableHlo.binary main_v78 main_v84 main_v85 ((fun x i => Host.gather gather_S500000x1_S16000000x1_S16000000x1_1_0_n_n_0_1_11 x i)),
    StableHlo.nullary main_cst_20 (constant S_ .f32 0x00000000#32),
    StableHlo.unary main_cst_20 main_v86 (broadcastInDim S500000x1 ![] bcast_S_S500000x1),
    StableHlo.unary main_arg2 main_v87 (broadcastInDim S16000000x1 ![0] bcast_S16000000_S16000000x1_0),
    StableHlo.ternary main_v86 main_v87 main_v85 main_v88 (Host.scatterAdd scatter_S500000x1_S16000000x1_S16000000x1_1_0_0_1) ]
abbrev w1_i6 : List (HloOp τ sig (Elt F)) :=
  [ StableHlo.binary main_v88 main_arg3 main_v89 ((fun l r => Host.dotGeneral dot_S500000x1_S1x8_S500000x8_1_0_0_1_n_n none l r)),
    StableHlo.unary main_arg4 main_v90 (broadcastInDim S1x8 ![1] bcast_S8_S1x8_1),
    StableHlo.unary main_v90 main_v91 (broadcastInDim S500000x8 ![0, 1] bcast_S1x8_S500000x8_0_1),
    StableHlo.binary main_v89 main_v91 main_v92 (addf),
    StableHlo.unary main_v14 main_v93 (broadcastInDim S500000x8 ![0, 1] bcast_S500000x1_S500000x8_0_1),
    StableHlo.binary main_v92 main_v93 main_v94 (mulf),
    StableHlo.binary main_v77 main_arg5 main_v95 ((fun l r => Host.dotGeneral dot_S500000x1_S1x8_S500000x8_1_0_0_1_n_n none l r)),
    StableHlo.binary main_v94 main_v95 main_v96 (addf) ]
theorem main_part1_chain (c : Dev nD) : main_part1 (F := F) c = (Pipeline.chainK
  [ StableHlo.seq w1_i0,
    StableHlo.seq w1_i1,
    StableHlo.seq w1_i2,
    StableHlo.seq w1_i3,
    StableHlo.seq w1_i4,
    StableHlo.seq w1_i5 ]
  (StableHlo.seq w1_i6) : Prog (TpuEff nD τ sig (Elt F) (Pipeline.Sig Λ₀ (Fin 0) fun p => (pcfgs (F := F) p).Adm) .tc) PUnit) := by
  chain_rfl

abbrev w2_i0 : List (HloOp τ sig (Elt F)) :=
  [ StableHlo.nullary main_cst_21 (constant S_ .f32 0x00000000#32),
    StableHlo.binary main_v96 main_cst_21 main_v97 ((fun x v => Host.reduceAdd x v reducesTo_S500000x8_S500000_d1 h_S_)),
    StableHlo.unary main_v97 main_v98 (broadcastInDim S500000x1 ![0] bcast_S500000_S500000x1_0),
    StableHlo.nullary main_cst_22 (constant S_ .f32 0x41000000#32),
    StableHlo.unary main_cst_22 main_v99 (broadcastInDim S500000x1 ![] bcast_S_S500000x1),
    StableHlo.binary main_v98 main_v99 main_v100 (Host.divf),
    StableHlo.nullary main_c_23 (constantI S_ 32 0#32) ]
abbrev w2_i1 : List (HloOp τ sig (Elt F)) :=
  [ StableHlo.TRef.nullary (.of main_call5_cst : StableHlo.TRef sig ⟨S_, .f32⟩) (constant S_ .f32 0x00000000#32),
    StableHlo.TRef.binary (.of main_v96 : StableHlo.TRef sig ⟨S500000x8, .f32⟩) (.of main_call5_cst : StableHlo.TRef sig ⟨S_, .f32⟩) (.of main_call5_v0 : StableHlo.TRef sig ⟨S500000, .f32⟩) (fun x v => Host.reduceAdd x v reducesTo_S500000x8_S500000_d1 h_S_),
    StableHlo.TRef.unary (.of main_call5_v0 : StableHlo.TRef sig ⟨S500000, .f32⟩) (.of main_call5_v1 : StableHlo.TRef sig ⟨S500000x1, .f32⟩) (broadcastInDim S500000x1 ![0] bcast_S500000_S500000x1_0),
    StableHlo.TRef.nullary (.of main_call5_cst_0 : StableHlo.TRef sig ⟨S_, .f32⟩) (constant S_ .f32 0x41000000#32),
    StableHlo.TRef.unary (.of main_call5_cst_0 : StableHlo.TRef sig ⟨S_, .f32⟩) (.of main_call5_v2 : StableHlo.TRef sig ⟨S500000x1, .f32⟩) (broadcastInDim S500000x1 ![] bcast_S_S500000x1),
    StableHlo.TRef.binary (.of main_call5_v1 : StableHlo.TRef sig ⟨S500000x1, .f32⟩) (.of main_call5_v2 : StableHlo.TRef sig ⟨S500000x1, .f32⟩) (.of main_call5_v3 : StableHlo.TRef sig ⟨S500000x1, .f32⟩) Host.divf,
    StableHlo.TRef.unary (.of main_call5_v3 : StableHlo.TRef sig ⟨S500000x1, .f32⟩) (.of main_call5_v4 : StableHlo.TRef sig ⟨S500000x8, .f32⟩) (broadcastInDim S500000x8 ![0, 1] bcast_S500000x1_S500000x8_0_1),
    StableHlo.TRef.binary (.of main_v96 : StableHlo.TRef sig ⟨S500000x8, .f32⟩) (.of main_call5_v4 : StableHlo.TRef sig ⟨S500000x8, .f32⟩) (.of main_call5_v5 : StableHlo.TRef sig ⟨S500000x8, .f32⟩) subf,
    StableHlo.TRef.binary (.of main_call5_v5 : StableHlo.TRef sig ⟨S500000x8, .f32⟩) (.of main_call5_v5 : StableHlo.TRef sig ⟨S500000x8, .f32⟩) (.of main_call5_v6 : StableHlo.TRef sig ⟨S500000x8, .f32⟩) mulf,
    StableHlo.TRef.unary (.of main_c_23 : StableHlo.TRef sig ⟨S_, .i32⟩) (.of main_call5_v7 : StableHlo.TRef sig ⟨S_, .f32⟩) (sitofp .f32),
    StableHlo.TRef.nullary (.of main_call5_cst_1 : StableHlo.TRef sig ⟨S_, .f32⟩) (constant S_ .f32 0x41000000#32),
    StableHlo.TRef.binary (.of main_call5_cst_1 : StableHlo.TRef sig ⟨S_, .f32⟩) (.of main_call5_v7 : StableHlo.TRef sig ⟨S_, .f32⟩) (.of main_call5_v8 : StableHlo.TRef sig ⟨S_, .f32⟩) subf,
    StableHlo.TRef.nullary (.of main_call5_cst_2 : StableHlo.TRef sig ⟨S_, .f32⟩) (constant S_ .f32 0x00000000#32),
    StableHlo.TRef.binary (.of main_call5_v6 : StableHlo.TRef sig ⟨S500000x8, .f32⟩) (.of main_call5_cst_2 : StableHlo.TRef sig ⟨S_, .f32⟩) (.of main_call5_v9 : StableHlo.TRef sig ⟨S500000, .f32⟩) (fun x v => Host.reduceAdd x v reducesTo_S500000x8_S500000_d1 h_S_),
    StableHlo.TRef.unary (.of main_call5_v9 : StableHlo.TRef sig ⟨S500000, .f32⟩) (.of main_call5_v10 : StableHlo.TRef sig ⟨S500000x1, .f32⟩) (broadcastInDim S500000x1 ![0] bcast_S500000_S500000x1_0),
    StableHlo.TRef.unary (.of main_call5_v8 : StableHlo.TRef sig ⟨S_, .f32⟩) (.of main_call5_v11 : StableHlo.TRef sig ⟨S500000x1, .f32⟩) (broadcastInDim S500000x1 ![] bcast_S_S500000x1),
    StableHlo.TRef.binary (.of main_call5_v10 : StableHlo.TRef sig ⟨S500000x1, .f32⟩) (.of main_call5_v11 : StableHlo.TRef sig ⟨S500000x1, .f32⟩) (.of main_call5_v12 : StableHlo.TRef sig ⟨S500000x1, .f32⟩) Host.divf,
    StableHlo.TRef.nullary (.of main_call5_cst_3 : StableHlo.TRef sig ⟨S_, .f32⟩) (constant S_ .f32 0x00000000#32),
    StableHlo.TRef.binary (.of main_call5_v8 : StableHlo.TRef sig ⟨S_, .f32⟩) (.of main_call5_cst_3 : StableHlo.TRef sig ⟨S_, .f32⟩) (.of main_call5_v13 : StableHlo.TRef sig ⟨S_, .i1⟩) (cmpf .ogt),
    StableHlo.TRef.nullary (.of main_call5_cst_4 : StableHlo.TRef sig ⟨S_, .f32⟩) (constant S_ .f32 0x7FC00000#32) ]
abbrev w2_i2 : List (HloOp τ sig (Elt F)) :=
  [ StableHlo.TRef.unary (.of main_call5_cst_4 : StableHlo.TRef sig ⟨S_, .f32⟩) (.of main_call5_call0_v0 : StableHlo.TRef sig ⟨S_, .f32⟩) id,
    StableHlo.TRef.unary (.of main_call5_call0_v0 : StableHlo.TRef sig ⟨S_, .f32⟩) (.of main_call5_call0_v1 : StableHlo.TRef sig ⟨S500000x1, .f32⟩) (broadcastInDim S500000x1 ![] bcast_S_S500000x1),
    StableHlo.TRef.ternary (.of main_call5_v13 : StableHlo.TRef sig ⟨S_, .i1⟩) (.of main_call5_v12 : StableHlo.TRef sig ⟨S500000x1, .f32⟩) (.of main_call5_call0_v1 : StableHlo.TRef sig ⟨S500000x1, .f32⟩) (.of main_v101 : StableHlo.TRef sig ⟨S500000x1, .f32⟩) (fun p a b => select (broadcastInDim S500000x1 ![] bcast_S_S500000x1 p) a b) ]
abbrev w2_i3 : List (HloOp τ sig (Elt F)) :=
  [ StableHlo.unary main_v100 main_v102 (broadcastInDim S500000x8 ![0, 1] bcast_S500000x1_S500000x8_0_1),
    StableHlo.binary main_v96 main_v102 main_v103 (subf),
    StableHlo.nullary main_cst_24 (constant S_ .f32 0x3727C5AC#32),
    StableHlo.unary main_cst_24 main_v104 (broadcastInDim S500000x1 ![] bcast_S_S500000x1),
    StableHlo.binary main_v101 main_v104 main_v105 (addf),
    StableHlo.unary main_v105 main_v106 (Host.rsqrt),
    StableHlo.unary main_v106 main_v107 (broadcastInDim S500000x8 ![0, 1] bcast_S500000x1_S500000x8_0_1),
    StableHlo.binary main_v103 main_v107 main_v108 (mulf),
    StableHlo.unary main_arg6 main_v109 (broadcastInDim S1x8 ![1] bcast_S8_S1x8_1),
    StableHlo.unary main_v109 main_v110 (broadcastInDim S500000x8 ![0, 1] bcast_S1x8_S500000x8_0_1),
    StableHlo.binary main_v108 main_v110 main_v111 (mulf),
    StableHlo.unary main_arg7 main_v112 (broadcastInDim S1x8 ![1] bcast_S8_S1x8_1),
    StableHlo.unary main_v112 main_v113 (broadcastInDim S500000x8 ![0, 1] bcast_S1x8_S500000x8_0_1),
    StableHlo.binary main_v111 main_v113 main_v114 (addf) ]
abbrev w2_i4 : List (HloOp τ sig (Elt F)) :=
  [ StableHlo.nullary main_cst_25 (constant S_ .f32 0x00000000#32),
    StableHlo.unary main_cst_25 main_v115 (broadcastInDim S500000x8 ![] bcast_S_S500000x8),
    StableHlo.binary main_v114 main_v115 main_v116 (cmpf .oge),
    StableHlo.unary main_arg8 main_v117 (broadcastInDim S500000x8 ![] bcast_S_S500000x8),
    StableHlo.binary main_v117 main_v114 main_v118 (mulf) ]
abbrev w2_i5 : List (HloOp τ sig (Elt F)) :=
  [ StableHlo.TRef.ternary (.of main_v116 : StableHlo.TRef sig ⟨S500000x8, .i1⟩) (.of main_v114 : StableHlo.TRef sig ⟨S500000x8, .f32⟩) (.of main_v118 : StableHlo.TRef sig ⟨S500000x8, .f32⟩) (.of main_v119 : StableHlo.TRef sig ⟨S500000x8, .f32⟩) select ]
abbrev w2_i6 : List (HloOp τ sig (Elt F)) :=
  [ StableHlo.unary main_v11 main_v120 (broadcastInDim S500000x8 ![0, 1] bcast_S500000x1_S500000x8_0_1),
    StableHlo.binary main_v119 main_v120 main_v121 (mulf),
    StableHlo.binary main_v121 main_arg9 main_v122 ((fun l r => Host.dotGeneral dot_S500000x8_S8x1_S500000x1_1_0_0_1_n_n none l r)),
    StableHlo.unary main_arg10 main_v123 (broadcastInDim S1x1 ![1] bcast_S1_S1x1_1),
    StableHlo.unary main_v123 main_v124 (broadcastInDim S500000x1 ![0, 1] bcast_S1x1_S500000x1_0_1),
    StableHlo.binary main_v122 main_v124 main_v125 (addf) ]
abbrev w2_i7 : List (HloOp τ sig (Elt F)) :=
  [ StableHlo.nullary main_c_26 (constantI S_ 32 0#32),
    StableHlo.unary main_c_26 main_v126 (broadcastInDim S16000000 ![] bcast_S_S16000000),
    StableHlo.binary main_arg1 main_v126 main_v127 (cmpi .slt),
    StableHlo.nullary main_c_27 (constantI S_ 32 500000#32),
    StableHlo.unary main_c_27 main_v128 (broadcastInDim S16000000 ![] bcast_S_S16000000),
    StableHlo.binary main_arg1 main_v128 main_v129 (addi),
    StableHlo.ternary main_v127 main_v129 main_arg1 main_v130 (select),
    StableHlo.unary main_v130 main_v131 (broadcastInDim S16000000x1 ![0] bcast_S16000000_S16000000x1_0),
    StableHlo.binary main_v125 main_v131 main_v132 ((fun x i => Host.gather gather_S500000x1_S16000000x1_S16000000x1_1_0_n_n_0_1_11 x i)),
    StableHlo.nullary main_cst_28 (constant S_ .f32 0x00000000#32),
    StableHlo.unary main_cst_28 main_v133 (broadcastInDim S500000x1 ![] bcast_S_S500000x1),
    StableHlo.unary main_arg2 main_v134 (broadcastInDim S16000000x1 ![0] bcast_S16000000_S16000000x1_0),
    StableHlo.ternary main_v133 main_v134 main_v132 main_v135 (Host.scatterAdd scatter_S500000x1_S16000000x1_S16000000x1_1_0_0_1),
    StableHlo.binary main_v135 main_v14 main_v136 (mulf),
    StableHlo.binary main_v77 main_v136 main_v137 (addf) ]
abbrev w2_i8 : List (HloOp τ sig (Elt F)) :=
  [ StableHlo.binary main_v137 main_v11 main_v138 (mulf),
    StableHlo.nullary main_c_29 (constantI S_ 32 0#32),
    StableHlo.unary main_c_29 main_v139 (broadcastInDim S16000000 ![] bcast_S_S16000000),
    StableHlo.binary main_arg1 main_v139 main_v140 (cmpi .slt),
    StableHlo.nullary main_c_30 (constantI S_ 32 500000#32),
    StableHlo.unary main_c_30 main_v141 (broadcastInDim S16000000 ![] bcast_S_S16000000),
    StableHlo.binary main_arg1 main_v141 main_v142 (addi),
    StableHlo.ternary main_v140 main_v142 main_arg1 main_v143 (select),
    StableHlo.unary main_v143 main_v144 (broadcastInDim S16000000x1 ![0] bcast_S16000000_S16000000x1_0),
    StableHlo.binary main_v138 main_v144 main_v145 ((fun x i => Host.gather gather_S500000x1_S16000000x1_S16000000x1_1_0_n_n_0_1_11 x i)),
    StableHlo.nullary main_cst_31 (constant S_ .f32 0x00000000#32) ]
theorem main_part2_chain (c : Dev nD) : main_part2 (F := F) c = (Pipeline.chainK
  [ StableHlo.seq w2_i0,
    StableHlo.seq w2_i1,
    StableHlo.seq w2_i2,
    StableHlo.seq w2_i3,
    StableHlo.seq w2_i4,
    StableHlo.seq w2_i5,
    StableHlo.seq w2_i6,
    StableHlo.seq w2_i7 ]
  (StableHlo.seq w2_i8) : Prog (TpuEff nD τ sig (Elt F) (Pipeline.Sig Λ₀ (Fin 0) fun p => (pcfgs (F := F) p).Adm) .tc) PUnit) := by
  chain_rfl

abbrev w3_i0 : List (HloOp τ sig (Elt F)) :=
  [ StableHlo.unary main_cst_31 main_v146 (broadcastInDim S500000x1 ![] bcast_S_S500000x1),
    StableHlo.unary main_arg2 main_v147 (broadcastInDim S16000000x1 ![0] bcast_S16000000_S16000000x1_0),
    StableHlo.ternary main_v146 main_v147 main_v145 main_v148 (Host.scatterAdd scatter_S500000x1_S16000000x1_S16000000x1_1_0_0_1) ]
abbrev w3_i1 : List (HloOp τ sig (Elt F)) :=
  [ StableHlo.binary main_v148 main_arg3 main_v149 ((fun l r => Host.dotGeneral dot_S500000x1_S1x8_S500000x8_1_0_0_1_n_n none l r)),
    StableHlo.unary main_arg4 main_v150 (broadcastInDim S1x8 ![1] bcast_S8_S1x8_1),
    StableHlo.unary main_v150 main_v151 (broadcastInDim S500000x8 ![0, 1] bcast_S1x8_S500000x8_0_1),
    StableHlo.binary main_v149 main_v151 main_v152 (addf),
    StableHlo.unary main_v14 main_v153 (broadcastInDim S500000x8 ![0, 1] bcast_S500000x1_S500000x8_0_1),
    StableHlo.binary main_v152 main_v153 main_v154 (mulf),
    StableHlo.binary main_v137 main_arg5 main_v155 ((fun l r => Host.dotGeneral dot_S500000x1_S1x8_S500000x8_1_0_0_1_n_n none l r)),
    StableHlo.binary main_v154 main_v155 main_v156 (addf) ]
abbrev w3_i2 : List (HloOp τ sig (Elt F)) :=
  [ StableHlo.nullary main_cst_32 (constant S_ .f32 0x00000000#32),
    StableHlo.binary main_v156 main_cst_32 main_v157 ((fun x v => Host.reduceAdd x v reducesTo_S500000x8_S500000_d1 h_S_)),
    StableHlo.unary main_v157 main_v158 (broadcastInDim S500000x1 ![0] bcast_S500000_S500000x1_0),
    StableHlo.nullary main_cst_33 (constant S_ .f32 0x41000000#32),
    StableHlo.unary main_cst_33 main_v159 (broadcastInDim S500000x1 ![] bcast_S_S500000x1),
    StableHlo.binary main_v158 main_v159 main_v160 (Host.divf),
    StableHlo.nullary main_c_34 (constantI S_ 32 0#32) ]
abbrev w3_i3 : List (HloOp τ sig (Elt F)) :=
  [ StableHlo.TRef.nullary (.of main_call7_cst : StableHlo.TRef sig ⟨S_, .f32⟩) (constant S_ .f32 0x00000000#32),
    StableHlo.TRef.binary (.of main_v156 : StableHlo.TRef sig ⟨S500000x8, .f32⟩) (.of main_call7_cst : StableHlo.TRef sig ⟨S_, .f32⟩) (.of main_call7_v0 : StableHlo.TRef sig ⟨S500000, .f32⟩) (fun x v => Host.reduceAdd x v reducesTo_S500000x8_S500000_d1 h_S_),
    StableHlo.TRef.unary (.of main_call7_v0 : StableHlo.TRef sig ⟨S500000, .f32⟩) (.of main_call7_v1 : StableHlo.TRef sig ⟨S500000x1, .f32⟩) (broadcastInDim S500000x1 ![0] bcast_S500000_S500000x1_0),
    StableHlo.TRef.nullary (.of main_call7_cst_0 : StableHlo.TRef sig ⟨S_, .f32⟩) (constant S_ .f32 0x41000000#32),
    StableHlo.TRef.unary (.of main_call7_cst_0 : StableHlo.TRef sig ⟨S_, .f32⟩) (.of main_call7_v2 : StableHlo.TRef sig ⟨S500000x1, .f32⟩) (broadcastInDim S500000x1 ![] bcast_S_S500000x1),
    StableHlo.TRef.binary (.of main_call7_v1 : StableHlo.TRef sig ⟨S500000x1, .f32⟩) (.of main_call7_v2 : StableHlo.TRef sig ⟨S500000x1, .f32⟩) (.of main_call7_v3 : StableHlo.TRef sig ⟨S500000x1, .f32⟩) Host.divf,
    StableHlo.TRef.unary (.of main_call7_v3 : StableHlo.TRef sig ⟨S500000x1, .f32⟩) (.of main_call7_v4 : StableHlo.TRef sig ⟨S500000x8, .f32⟩) (broadcastInDim S500000x8 ![0, 1] bcast_S500000x1_S500000x8_0_1),
    StableHlo.TRef.binary (.of main_v156 : StableHlo.TRef sig ⟨S500000x8, .f32⟩) (.of main_call7_v4 : StableHlo.TRef sig ⟨S500000x8, .f32⟩) (.of main_call7_v5 : StableHlo.TRef sig ⟨S500000x8, .f32⟩) subf,
    StableHlo.TRef.binary (.of main_call7_v5 : StableHlo.TRef sig ⟨S500000x8, .f32⟩) (.of main_call7_v5 : StableHlo.TRef sig ⟨S500000x8, .f32⟩) (.of main_call7_v6 : StableHlo.TRef sig ⟨S500000x8, .f32⟩) mulf,
    StableHlo.TRef.unary (.of main_c_34 : StableHlo.TRef sig ⟨S_, .i32⟩) (.of main_call7_v7 : StableHlo.TRef sig ⟨S_, .f32⟩) (sitofp .f32),
    StableHlo.TRef.nullary (.of main_call7_cst_1 : StableHlo.TRef sig ⟨S_, .f32⟩) (constant S_ .f32 0x41000000#32),
    StableHlo.TRef.binary (.of main_call7_cst_1 : StableHlo.TRef sig ⟨S_, .f32⟩) (.of main_call7_v7 : StableHlo.TRef sig ⟨S_, .f32⟩) (.of main_call7_v8 : StableHlo.TRef sig ⟨S_, .f32⟩) subf,
    StableHlo.TRef.nullary (.of main_call7_cst_2 : StableHlo.TRef sig ⟨S_, .f32⟩) (constant S_ .f32 0x00000000#32),
    StableHlo.TRef.binary (.of main_call7_v6 : StableHlo.TRef sig ⟨S500000x8, .f32⟩) (.of main_call7_cst_2 : StableHlo.TRef sig ⟨S_, .f32⟩) (.of main_call7_v9 : StableHlo.TRef sig ⟨S500000, .f32⟩) (fun x v => Host.reduceAdd x v reducesTo_S500000x8_S500000_d1 h_S_),
    StableHlo.TRef.unary (.of main_call7_v9 : StableHlo.TRef sig ⟨S500000, .f32⟩) (.of main_call7_v10 : StableHlo.TRef sig ⟨S500000x1, .f32⟩) (broadcastInDim S500000x1 ![0] bcast_S500000_S500000x1_0),
    StableHlo.TRef.unary (.of main_call7_v8 : StableHlo.TRef sig ⟨S_, .f32⟩) (.of main_call7_v11 : StableHlo.TRef sig ⟨S500000x1, .f32⟩) (broadcastInDim S500000x1 ![] bcast_S_S500000x1),
    StableHlo.TRef.binary (.of main_call7_v10 : StableHlo.TRef sig ⟨S500000x1, .f32⟩) (.of main_call7_v11 : StableHlo.TRef sig ⟨S500000x1, .f32⟩) (.of main_call7_v12 : StableHlo.TRef sig ⟨S500000x1, .f32⟩) Host.divf,
    StableHlo.TRef.nullary (.of main_call7_cst_3 : StableHlo.TRef sig ⟨S_, .f32⟩) (constant S_ .f32 0x00000000#32),
    StableHlo.TRef.binary (.of main_call7_v8 : StableHlo.TRef sig ⟨S_, .f32⟩) (.of main_call7_cst_3 : StableHlo.TRef sig ⟨S_, .f32⟩) (.of main_call7_v13 : StableHlo.TRef sig ⟨S_, .i1⟩) (cmpf .ogt),
    StableHlo.TRef.nullary (.of main_call7_cst_4 : StableHlo.TRef sig ⟨S_, .f32⟩) (constant S_ .f32 0x7FC00000#32) ]
abbrev w3_i4 : List (HloOp τ sig (Elt F)) :=
  [ StableHlo.TRef.unary (.of main_call7_cst_4 : StableHlo.TRef sig ⟨S_, .f32⟩) (.of main_call7_call0_v0 : StableHlo.TRef sig ⟨S_, .f32⟩) id,
    StableHlo.TRef.unary (.of main_call7_call0_v0 : StableHlo.TRef sig ⟨S_, .f32⟩) (.of main_call7_call0_v1 : StableHlo.TRef sig ⟨S500000x1, .f32⟩) (broadcastInDim S500000x1 ![] bcast_S_S500000x1),
    StableHlo.TRef.ternary (.of main_call7_v13 : StableHlo.TRef sig ⟨S_, .i1⟩) (.of main_call7_v12 : StableHlo.TRef sig ⟨S500000x1, .f32⟩) (.of main_call7_call0_v1 : StableHlo.TRef sig ⟨S500000x1, .f32⟩) (.of main_v161 : StableHlo.TRef sig ⟨S500000x1, .f32⟩) (fun p a b => select (broadcastInDim S500000x1 ![] bcast_S_S500000x1 p) a b) ]
abbrev w3_i5 : List (HloOp τ sig (Elt F)) :=
  [ StableHlo.unary main_v160 main_v162 (broadcastInDim S500000x8 ![0, 1] bcast_S500000x1_S500000x8_0_1),
    StableHlo.binary main_v156 main_v162 main_v163 (subf),
    StableHlo.nullary main_cst_35 (constant S_ .f32 0x3727C5AC#32),
    StableHlo.unary main_cst_35 main_v164 (broadcastInDim S500000x1 ![] bcast_S_S500000x1),
    StableHlo.binary main_v161 main_v164 main_v165 (addf),
    StableHlo.unary main_v165 main_v166 (Host.rsqrt),
    StableHlo.unary main_v166 main_v167 (broadcastInDim S500000x8 ![0, 1] bcast_S500000x1_S500000x8_0_1),
    StableHlo.binary main_v163 main_v167 main_v168 (mulf),
    StableHlo.unary main_arg6 main_v169 (broadcastInDim S1x8 ![1] bcast_S8_S1x8_1),
    StableHlo.unary main_v169 main_v170 (broadcastInDim S500000x8 ![0, 1] bcast_S1x8_S500000x8_0_1),
    StableHlo.binary main_v168 main_v170 main_v171 (mulf),
    StableHlo.unary main_arg7 main_v172 (broadcastInDim S1x8 ![1] bcast_S8_S1x8_1),
    StableHlo.unary main_v172 main_v173 (broadcastInDim S500000x8 ![0, 1] bcast_S1x8_S500000x8_0_1),
    StableHlo.binary main_v171 main_v173 main_v174 (addf) ]
abbrev w3_i6 : List (HloOp τ sig (Elt F)) :=
  [ StableHlo.nullary main_cst_36 (constant S_ .f32 0x00000000#32),
    StableHlo.unary main_cst_36 main_v175 (broadcastInDim S500000x8 ![] bcast_S_S500000x8),
    StableHlo.binary main_v174 main_v175 main_v176 (cmpf .oge),
    StableHlo.unary main_arg8 main_v177 (broadcastInDim S500000x8 ![] bcast_S_S500000x8),
    StableHlo.binary main_v177 main_v174 main_v178 (mulf) ]
abbrev w3_i7 : List (HloOp τ sig (Elt F)) :=
  [ StableHlo.TRef.ternary (.of main_v176 : StableHlo.TRef sig ⟨S500000x8, .i1⟩) (.of main_v174 : StableHlo.TRef sig ⟨S500000x8, .f32⟩) (.of main_v178 : StableHlo.TRef sig ⟨S500000x8, .f32⟩) (.of main_v179 : StableHlo.TRef sig ⟨S500000x8, .f32⟩) select ]
abbrev w3_i8 : List (HloOp τ sig (Elt F)) :=
  [ StableHlo.unary main_v11 main_v180 (broadcastInDim S500000x8 ![0, 1] bcast_S500000x1_S500000x8_0_1),
    StableHlo.binary main_v179 main_v180 main_v181 (mulf),
    StableHlo.binary main_v181 main_arg9 main_v182 ((fun l r => Host.dotGeneral dot_S500000x8_S8x1_S500000x1_1_0_0_1_n_n none l r)),
    StableHlo.unary main_arg10 main_v183 (broadcastInDim S1x1 ![1] bcast_S1_S1x1_1),
    StableHlo.unary main_v183 main_v184 (broadcastInDim S500000x1 ![0, 1] bcast_S1x1_S500000x1_0_1),
    StableHlo.binary main_v182 main_v184 main_v185 (addf) ]
abbrev w3_i9 : List (HloOp τ sig (Elt F)) :=
  [ StableHlo.nullary main_c_37 (constantI S_ 32 0#32),
    StableHlo.unary main_c_37 main_v186 (broadcastInDim S16000000 ![] bcast_S_S16000000),
    StableHlo.binary main_arg1 main_v186 main_v187 (cmpi .slt),
    StableHlo.nullary main_c_38 (constantI S_ 32 500000#32),
    StableHlo.unary main_c_38 main_v188 (broadcastInDim S16000000 ![] bcast_S_S16000000),
    StableHlo.binary main_arg1 main_v188 main_v189 (addi),
    StableHlo.ternary main_v187 main_v189 main_arg1 main_v190 (select),
    StableHlo.unary main_v190 main_v191 (broadcastInDim S16000000x1 ![0] bcast_S16000000_S16000000x1_0),
    StableHlo.binary main_v185 main_v191 main_v192 ((fun x i => Host.gather gather_S500000x1_S16000000x1_S16000000x1_1_0_n_n_0_1_11 x i)),
    StableHlo.nullary main_cst_39 (constant S_ .f32 0x00000000#32),
    StableHlo.unary main_cst_39 main_v193 (broadcastInDim S500000x1 ![] bcast_S_S500000x1),
    StableHlo.unary main_arg2 main_v194 (broadcastInDim S16000000x1 ![0] bcast_S16000000_S16000000x1_0),
    StableHlo.ternary main_v193 main_v194 main_v192 main_v195 (Host.scatterAdd scatter_S500000x1_S16000000x1_S16000000x1_1_0_0_1),
    StableHlo.binary main_v195 main_v14 main_v196 (mulf),
    StableHlo.binary main_v137 main_v196 main_v197 (addf) ]
theorem main_part3_chain (c : Dev nD) : main_part3 (F := F) c = (Pipeline.chainK
  [ StableHlo.seq w3_i0,
    StableHlo.seq w3_i1,
    StableHlo.seq w3_i2,
    StableHlo.seq w3_i3,
    StableHlo.seq w3_i4,
    StableHlo.seq w3_i5,
    StableHlo.seq w3_i6,
    StableHlo.seq w3_i7,
    StableHlo.seq w3_i8 ]
  (StableHlo.seq w3_i9) : Prog (TpuEff nD τ sig (Elt F) (Pipeline.Sig Λ₀ (Fin 0) fun p => (pcfgs (F := F) p).Adm) .tc) PUnit) := by
  chain_rfl

abbrev w4_i0 : List (HloOp τ sig (Elt F)) :=
  [ StableHlo.binary main_v197 main_v11 main_v198 (mulf),
    StableHlo.nullary main_c_40 (constantI S_ 32 0#32),
    StableHlo.unary main_c_40 main_v199 (broadcastInDim S16000000 ![] bcast_S_S16000000),
    StableHlo.binary main_arg1 main_v199 main_v200 (cmpi .slt),
    StableHlo.nullary main_c_41 (constantI S_ 32 500000#32),
    StableHlo.unary main_c_41 main_v201 (broadcastInDim S16000000 ![] bcast_S_S16000000),
    StableHlo.binary main_arg1 main_v201 main_v202 (addi),
    StableHlo.ternary main_v200 main_v202 main_arg1 main_v203 (select),
    StableHlo.unary main_v203 main_v204 (broadcastInDim S16000000x1 ![0] bcast_S16000000_S16000000x1_0),
    StableHlo.binary main_v198 main_v204 main_v205 ((fun x i => Host.gather gather_S500000x1_S16000000x1_S16000000x1_1_0_n_n_0_1_11 x i)),
    StableHlo.nullary main_cst_42 (constant S_ .f32 0x00000000#32),
    StableHlo.unary main_cst_42 main_v206 (broadcastInDim S500000x1 ![] bcast_S_S500000x1),
    StableHlo.unary main_arg2 main_v207 (broadcastInDim S16000000x1 ![0] bcast_S16000000_S16000000x1_0),
    StableHlo.ternary main_v206 main_v207 main_v205 main_v208 (Host.scatterAdd scatter_S500000x1_S16000000x1_S16000000x1_1_0_0_1) ]
abbrev w4_i1 : List (HloOp τ sig (Elt F)) :=
  [ StableHlo.binary main_v208 main_arg3 main_v209 ((fun l r => Host.dotGeneral dot_S500000x1_S1x8_S500000x8_1_0_0_1_n_n none l r)),
    StableHlo.unary main_arg4 main_v210 (broadcastInDim S1x8 ![1] bcast_S8_S1x8_1),
    StableHlo.unary main_v210 main_v211 (broadcastInDim S500000x8 ![0, 1] bcast_S1x8_S500000x8_0_1),
    StableHlo.binary main_v209 main_v211 main_v212 (addf),
    StableHlo.unary main_v14 main_v213 (broadcastInDim S500000x8 ![0, 1] bcast_S500000x1_S500000x8_0_1),
    StableHlo.binary main_v212 main_v213 main_v214 (mulf),
    StableHlo.binary main_v197 main_arg5 main_v215 ((fun l r => Host.dotGeneral dot_S500000x1_S1x8_S500000x8_1_0_0_1_n_n none l r)),
    StableHlo.binary main_v214 main_v215 main_v216 (addf) ]
abbrev w4_i2 : List (HloOp τ sig (Elt F)) :=
  [ StableHlo.nullary main_cst_43 (constant S_ .f32 0x00000000#32),
    StableHlo.binary main_v216 main_cst_43 main_v217 ((fun x v => Host.reduceAdd x v reducesTo_S500000x8_S500000_d1 h_S_)),
    StableHlo.unary main_v217 main_v218 (broadcastInDim S500000x1 ![0] bcast_S500000_S500000x1_0),
    StableHlo.nullary main_cst_44 (constant S_ .f32 0x41000000#32),
    StableHlo.unary main_cst_44 main_v219 (broadcastInDim S500000x1 ![] bcast_S_S500000x1),
    StableHlo.binary main_v218 main_v219 main_v220 (Host.divf),
    StableHlo.nullary main_c_45 (constantI S_ 32 0#32) ]
abbrev w4_i3 : List (HloOp τ sig (Elt F)) :=
  [ StableHlo.TRef.nullary (.of main_call9_cst : StableHlo.TRef sig ⟨S_, .f32⟩) (constant S_ .f32 0x00000000#32),
    StableHlo.TRef.binary (.of main_v216 : StableHlo.TRef sig ⟨S500000x8, .f32⟩) (.of main_call9_cst : StableHlo.TRef sig ⟨S_, .f32⟩) (.of main_call9_v0 : StableHlo.TRef sig ⟨S500000, .f32⟩) (fun x v => Host.reduceAdd x v reducesTo_S500000x8_S500000_d1 h_S_),
    StableHlo.TRef.unary (.of main_call9_v0 : StableHlo.TRef sig ⟨S500000, .f32⟩) (.of main_call9_v1 : StableHlo.TRef sig ⟨S500000x1, .f32⟩) (broadcastInDim S500000x1 ![0] bcast_S500000_S500000x1_0),
    StableHlo.TRef.nullary (.of main_call9_cst_0 : StableHlo.TRef sig ⟨S_, .f32⟩) (constant S_ .f32 0x41000000#32),
    StableHlo.TRef.unary (.of main_call9_cst_0 : StableHlo.TRef sig ⟨S_, .f32⟩) (.of main_call9_v2 : StableHlo.TRef sig ⟨S500000x1, .f32⟩) (broadcastInDim S500000x1 ![] bcast_S_S500000x1),
    StableHlo.TRef.binary (.of main_call9_v1 : StableHlo.TRef sig ⟨S500000x1, .f32⟩) (.of main_call9_v2 : StableHlo.TRef sig ⟨S500000x1, .f32⟩) (.of main_call9_v3 : StableHlo.TRef sig ⟨S500000x1, .f32⟩) Host.divf,
    StableHlo.TRef.unary (.of main_call9_v3 : StableHlo.TRef sig ⟨S500000x1, .f32⟩) (.of main_call9_v4 : StableHlo.TRef sig ⟨S500000x8, .f32⟩) (broadcastInDim S500000x8 ![0, 1] bcast_S500000x1_S500000x8_0_1),
    StableHlo.TRef.binary (.of main_v216 : StableHlo.TRef sig ⟨S500000x8, .f32⟩) (.of main_call9_v4 : StableHlo.TRef sig ⟨S500000x8, .f32⟩) (.of main_call9_v5 : StableHlo.TRef sig ⟨S500000x8, .f32⟩) subf,
    StableHlo.TRef.binary (.of main_call9_v5 : StableHlo.TRef sig ⟨S500000x8, .f32⟩) (.of main_call9_v5 : StableHlo.TRef sig ⟨S500000x8, .f32⟩) (.of main_call9_v6 : StableHlo.TRef sig ⟨S500000x8, .f32⟩) mulf,
    StableHlo.TRef.unary (.of main_c_45 : StableHlo.TRef sig ⟨S_, .i32⟩) (.of main_call9_v7 : StableHlo.TRef sig ⟨S_, .f32⟩) (sitofp .f32),
    StableHlo.TRef.nullary (.of main_call9_cst_1 : StableHlo.TRef sig ⟨S_, .f32⟩) (constant S_ .f32 0x41000000#32),
    StableHlo.TRef.binary (.of main_call9_cst_1 : StableHlo.TRef sig ⟨S_, .f32⟩) (.of main_call9_v7 : StableHlo.TRef sig ⟨S_, .f32⟩) (.of main_call9_v8 : StableHlo.TRef sig ⟨S_, .f32⟩) subf,
    StableHlo.TRef.nullary (.of main_call9_cst_2 : StableHlo.TRef sig ⟨S_, .f32⟩) (constant S_ .f32 0x00000000#32),
    StableHlo.TRef.binary (.of main_call9_v6 : StableHlo.TRef sig ⟨S500000x8, .f32⟩) (.of main_call9_cst_2 : StableHlo.TRef sig ⟨S_, .f32⟩) (.of main_call9_v9 : StableHlo.TRef sig ⟨S500000, .f32⟩) (fun x v => Host.reduceAdd x v reducesTo_S500000x8_S500000_d1 h_S_),
    StableHlo.TRef.unary (.of main_call9_v9 : StableHlo.TRef sig ⟨S500000, .f32⟩) (.of main_call9_v10 : StableHlo.TRef sig ⟨S500000x1, .f32⟩) (broadcastInDim S500000x1 ![0] bcast_S500000_S500000x1_0),
    StableHlo.TRef.unary (.of main_call9_v8 : StableHlo.TRef sig ⟨S_, .f32⟩) (.of main_call9_v11 : StableHlo.TRef sig ⟨S500000x1, .f32⟩) (broadcastInDim S500000x1 ![] bcast_S_S500000x1),
    StableHlo.TRef.binary (.of main_call9_v10 : StableHlo.TRef sig ⟨S500000x1, .f32⟩) (.of main_call9_v11 : StableHlo.TRef sig ⟨S500000x1, .f32⟩) (.of main_call9_v12 : StableHlo.TRef sig ⟨S500000x1, .f32⟩) Host.divf,
    StableHlo.TRef.nullary (.of main_call9_cst_3 : StableHlo.TRef sig ⟨S_, .f32⟩) (constant S_ .f32 0x00000000#32),
    StableHlo.TRef.binary (.of main_call9_v8 : StableHlo.TRef sig ⟨S_, .f32⟩) (.of main_call9_cst_3 : StableHlo.TRef sig ⟨S_, .f32⟩) (.of main_call9_v13 : StableHlo.TRef sig ⟨S_, .i1⟩) (cmpf .ogt),
    StableHlo.TRef.nullary (.of main_call9_cst_4 : StableHlo.TRef sig ⟨S_, .f32⟩) (constant S_ .f32 0x7FC00000#32) ]
abbrev w4_i4 : List (HloOp τ sig (Elt F)) :=
  [ StableHlo.TRef.unary (.of main_call9_cst_4 : StableHlo.TRef sig ⟨S_, .f32⟩) (.of main_call9_call0_v0 : StableHlo.TRef sig ⟨S_, .f32⟩) id,
    StableHlo.TRef.unary (.of main_call9_call0_v0 : StableHlo.TRef sig ⟨S_, .f32⟩) (.of main_call9_call0_v1 : StableHlo.TRef sig ⟨S500000x1, .f32⟩) (broadcastInDim S500000x1 ![] bcast_S_S500000x1),
    StableHlo.TRef.ternary (.of main_call9_v13 : StableHlo.TRef sig ⟨S_, .i1⟩) (.of main_call9_v12 : StableHlo.TRef sig ⟨S500000x1, .f32⟩) (.of main_call9_call0_v1 : StableHlo.TRef sig ⟨S500000x1, .f32⟩) (.of main_v221 : StableHlo.TRef sig ⟨S500000x1, .f32⟩) (fun p a b => select (broadcastInDim S500000x1 ![] bcast_S_S500000x1 p) a b) ]
abbrev w4_i5 : List (HloOp τ sig (Elt F)) :=
  [ StableHlo.unary main_v220 main_v222 (broadcastInDim S500000x8 ![0, 1] bcast_S500000x1_S500000x8_0_1),
    StableHlo.binary main_v216 main_v222 main_v223 (subf),
    StableHlo.nullary main_cst_46 (constant S_ .f32 0x3727C5AC#32),
    StableHlo.unary main_cst_46 main_v224 (broadcastInDim S500000x1 ![] bcast_S_S500000x1),
    StableHlo.binary main_v221 main_v224 main_v225 (addf),
    StableHlo.unary main_v225 main_v226 (Host.rsqrt),
    StableHlo.unary main_v226 main_v227 (broadcastInDim S500000x8 ![0, 1] bcast_S500000x1_S500000x8_0_1),
    StableHlo.binary main_v223 main_v227 main_v228 (mulf),
    StableHlo.unary main_arg6 main_v229 (broadcastInDim S1x8 ![1] bcast_S8_S1x8_1),
    StableHlo.unary main_v229 main_v230 (broadcastInDim S500000x8 ![0, 1] bcast_S1x8_S500000x8_0_1),
    StableHlo.binary main_v228 main_v230 main_v231 (mulf),
    StableHlo.unary main_arg7 main_v232 (broadcastInDim S1x8 ![1] bcast_S8_S1x8_1),
    StableHlo.unary main_v232 main_v233 (broadcastInDim S500000x8 ![0, 1] bcast_S1x8_S500000x8_0_1),
    StableHlo.binary main_v231 main_v233 main_v234 (addf) ]
abbrev w4_i6 : List (HloOp τ sig (Elt F)) :=
  [ StableHlo.nullary main_cst_47 (constant S_ .f32 0x00000000#32),
    StableHlo.unary main_cst_47 main_v235 (broadcastInDim S500000x8 ![] bcast_S_S500000x8),
    StableHlo.binary main_v234 main_v235 main_v236 (cmpf .oge),
    StableHlo.unary main_arg8 main_v237 (broadcastInDim S500000x8 ![] bcast_S_S500000x8),
    StableHlo.binary main_v237 main_v234 main_v238 (mulf) ]
abbrev w4_i7 : List (HloOp τ sig (Elt F)) :=
  [ StableHlo.TRef.ternary (.of main_v236 : StableHlo.TRef sig ⟨S500000x8, .i1⟩) (.of main_v234 : StableHlo.TRef sig ⟨S500000x8, .f32⟩) (.of main_v238 : StableHlo.TRef sig ⟨S500000x8, .f32⟩) (.of main_v239 : StableHlo.TRef sig ⟨S500000x8, .f32⟩) select ]
abbrev w4_i8 : List (HloOp τ sig (Elt F)) :=
  [ StableHlo.unary main_v11 main_v240 (broadcastInDim S500000x8 ![0, 1] bcast_S500000x1_S500000x8_0_1),
    StableHlo.binary main_v239 main_v240 main_v241 (mulf),
    StableHlo.binary main_v241 main_arg9 main_v242 ((fun l r => Host.dotGeneral dot_S500000x8_S8x1_S500000x1_1_0_0_1_n_n none l r)),
    StableHlo.unary main_arg10 main_v243 (broadcastInDim S1x1 ![1] bcast_S1_S1x1_1),
    StableHlo.unary main_v243 main_v244 (broadcastInDim S500000x1 ![0, 1] bcast_S1x1_S500000x1_0_1),
    StableHlo.binary main_v242 main_v244 main_v245 (addf) ]
abbrev w4_i9 : List (HloOp τ sig (Elt F)) :=
  [ StableHlo.nullary main_c_48 (constantI S_ 32 0#32),
    StableHlo.unary main_c_48 main_v246 (broadcastInDim S16000000 ![] bcast_S_S16000000),
    StableHlo.binary main_arg1 main_v246 main_v247 (cmpi .slt),
    StableHlo.nullary main_c_49 (constantI S_ 32 500000#32) ]
theorem main_part4_chain (c : Dev nD) : main_part4 (F := F) c = (Pipeline.chainK
  [ StableHlo.seq w4_i0,
    StableHlo.seq w4_i1,
    StableHlo.seq w4_i2,
    StableHlo.seq w4_i3,
    StableHlo.seq w4_i4,
    StableHlo.seq w4_i5,
    StableHlo.seq w4_i6,
    StableHlo.seq w4_i7,
    StableHlo.seq w4_i8 ]
  (StableHlo.seq w4_i9) : Prog (TpuEff nD τ sig (Elt F) (Pipeline.Sig Λ₀ (Fin 0) fun p => (pcfgs (F := F) p).Adm) .tc) PUnit) := by
  chain_rfl

abbrev w5_i0 : List (HloOp τ sig (Elt F)) :=
  [ StableHlo.unary main_c_49 main_v248 (broadcastInDim S16000000 ![] bcast_S_S16000000),
    StableHlo.binary main_arg1 main_v248 main_v249 (addi),
    StableHlo.ternary main_v247 main_v249 main_arg1 main_v250 (select),
    StableHlo.unary main_v250 main_v251 (broadcastInDim S16000000x1 ![0] bcast_S16000000_S16000000x1_0),
    StableHlo.binary main_v245 main_v251 main_v252 ((fun x i => Host.gather gather_S500000x1_S16000000x1_S16000000x1_1_0_n_n_0_1_11 x i)),
    StableHlo.nullary main_cst_50 (constant S_ .f32 0x00000000#32),
    StableHlo.unary main_cst_50 main_v253 (broadcastInDim S500000x1 ![] bcast_S_S500000x1),
    StableHlo.unary main_arg2 main_v254 (broadcastInDim S16000000x1 ![0] bcast_S16000000_S16000000x1_0),
    StableHlo.ternary main_v253 main_v254 main_v252 main_v255 (Host.scatterAdd scatter_S500000x1_S16000000x1_S16000000x1_1_0_0_1),
    StableHlo.binary main_v255 main_v14 main_v256 (mulf),
    StableHlo.binary main_v197 main_v256 main_v257 (addf) ]
theorem main_part5_chain (c : Dev nD) : main_part5 (F := F) c = (Pipeline.chain
  [ StableHlo.seq w5_i0 ] : Prog (TpuEff nD τ sig (Elt F) (Pipeline.Sig Λ₀ (Fin 0) fun p => (pcfgs (F := F) p).Adm) .tc) PUnit) := by
  chain_rfl

abbrev items : List (List (HloOp τ sig (Elt F))) := [w0_i0, w0_i1, w0_i2, w0_i3, w0_i4, w0_i5, w0_i6, w0_i7, w0_i8, w0_i9, w0_i10, w0_i11, w1_i0, w1_i1, w1_i2, w1_i3, w1_i4, w1_i5, w1_i6, w2_i0, w2_i1, w2_i2, w2_i3, w2_i4, w2_i5, w2_i6, w2_i7, w2_i8, w3_i0, w3_i1, w3_i2, w3_i3, w3_i4, w3_i5, w3_i6, w3_i7, w3_i8, w3_i9, w4_i0, w4_i1, w4_i2, w4_i3, w4_i4, w4_i5, w4_i6, w4_i7, w4_i8, w4_i9, w5_i0]

theorem main_chain (c : Dev nD) : main (F := F) c = (Pipeline.chain ((items (F := F)).map fun l => StableHlo.seq l) : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c >>= fun _ => main_part4 (F := F) c >>= fun _ => main_part5 (F := F) c) = _
  rewrite [main_part5_chain, main_part4_chain, Pipeline.chainK_bind_chain, main_part3_chain, Pipeline.chainK_bind_chain, main_part2_chain, Pipeline.chainK_bind_chain, main_part1_chain, Pipeline.chainK_bind_chain, main_part0_chain, Pipeline.chainK_bind_chain]
  rfl

/-- Every operation touches TensorCore references only and determines its results. -/
theorem items_ok : (items (F := F)).Forall fun l => l.Forall fun op => op.bufs ⊆ StableHlo.tcRefs τ sig ∧ op.fresh = ∅ := by
  simp only [items, List.Forall]
  repeat' constructor
  all_goals simp only [StableHlo.nullary_bufs_sub, StableHlo.unary_bufs_sub, StableHlo.binary_bufs_sub, StableHlo.ternary_bufs_sub]

end Cert.ReferenceIdeal.RunOps

end
-- ==== Proof.RefFns.lean ====
/- The idealized reference's stages as functions of arrays, each in the program's own operations and order. -/
import proofs.«409853_j63763084476519_2_alg».proof.Proof.Gen.ReferenceIdeal

noncomputable section

namespace Cert.ReferenceIdeal.Fn

open Cert.ReferenceIdeal Cert.ReferenceIdeal.Gen Idealize.ShloMosaic

variable {F : FTy → Type} [FloatOps F]

noncomputable def y0 (y : (⟨S500000x1, .f32⟩ : BufTy).Contents (Elt F)) : (⟨S500000x1, .f32⟩ : BufTy).Contents (Elt F) :=
  have cst_6 : (⟨S_, .f32⟩ : BufTy).Contents (Elt F) := (constant S_ .f32 0x00000000#32)
  have v15 := broadcastInDim S500000x1 ![] bcast_S_S500000x1 cst_6
  have v16 := cmpf .oeq y v15
  have cst_7 : (⟨S_, .f32⟩ : BufTy).Contents (Elt F) := (constant S_ .f32 0xBF800000#32)
  have call2_v0 := broadcastInDim S500000x1 ![] bcast_S_S500000x1 cst_7
  have v17 := select v16 call2_v0 y
  v17

noncomputable def degScale (ends : (⟨S16000000, .i32⟩ : BufTy).Contents (Elt F)) : (⟨S500000x1, .f32⟩ : BufTy).Contents (Elt F) :=
  have cst : (⟨S_, .f32⟩ : BufTy).Contents (Elt F) := (constant S_ .f32 0x3F800000#32)
  have v0 := broadcastInDim S16000000 ![] bcast_S_S16000000 cst
  have cst_0 : (⟨S_, .f32⟩ : BufTy).Contents (Elt F) := (constant S_ .f32 0x00000000#32)
  have v1 := broadcastInDim S500000 ![] bcast_S_S500000 cst_0
  have v2 := broadcastInDim S16000000x1 ![0] bcast_S16000000_S16000000x1_0 ends
  have v3 := Host.scatterAdd scatter_S500000_S16000000x1_S16000000_n_0_0_1 v1 v2 v0
  have cst_1 : (⟨S_, .f32⟩ : BufTy).Contents (Elt F) := (constant S_ .f32 0x3F800000#32)
  have call0_v0 := id cst_1
  have call0_v1 := broadcastInDim S500000 ![] bcast_S_S500000 call0_v0
  have v4 := maximumf call0_v1 v3
  have cst_4 : (⟨S_, .f32⟩ : BufTy).Contents (Elt F) := (constant S_ .f32 0xBF000000#32)
  have v9 := broadcastInDim S500000 ![] bcast_S_S500000 cst_4
  have v10 := Host.powf v4 v9
  have v11 := broadcastInDim S500000x1 ![0] bcast_S500000_S500000x1_0 v10
  v11

noncomputable def aggCol (v : (⟨S500000x1, .f32⟩ : BufTy).Contents (Elt F)) (src : (⟨S16000000, .i32⟩ : BufTy).Contents (Elt F)) (dst : (⟨S16000000, .i32⟩ : BufTy).Contents (Elt F)) : (⟨S500000x1, .f32⟩ : BufTy).Contents (Elt F) :=
  have c : (⟨S_, .i32⟩ : BufTy).Contents (Elt F) := (constantI S_ 32 0#32)
  have v19 := broadcastInDim S16000000 ![] bcast_S_S16000000 c
  have v20 := cmpi .slt src v19
  have c_8 : (⟨S_, .i32⟩ : BufTy).Contents (Elt F) := (constantI S_ 32 500000#32)
  have v21 := broadcastInDim S16000000 ![] bcast_S_S16000000 c_8
  have v22 := addi src v21
  have v23 := select v20 v22 src
  have v24 := broadcastInDim S16000000x1 ![0] bcast_S16000000_S16000000x1_0 v23
  have v25 := Host.gather gather_S500000x1_S16000000x1_S16000000x1_1_0_n_n_0_1_11 v v24
  have cst_9 : (⟨S_, .f32⟩ : BufTy).Contents (Elt F) := (constant S_ .f32 0x00000000#32)
  have v26 := broadcastInDim S500000x1 ![] bcast_S_S500000x1 cst_9
  have v27 := broadcastInDim S16000000x1 ![0] bcast_S16000000_S16000000x1_0 dst
  have v28 := Host.scatterAdd scatter_S500000x1_S16000000x1_S16000000x1_1_0_0_1 v26 v27 v25
  v28

noncomputable def roundA (y : (⟨S500000x1, .f32⟩ : BufTy).Contents (Elt F)) (ds : (⟨S500000x1, .f32⟩ : BufTy).Contents (Elt F)) (src : (⟨S16000000, .i32⟩ : BufTy).Contents (Elt F)) (dst : (⟨S16000000, .i32⟩ : BufTy).Contents (Elt F)) : (⟨S500000x1, .f32⟩ : BufTy).Contents (Elt F) :=
  aggCol (mulf y ds) src dst

noncomputable def preNorm (agg : (⟨S500000x1, .f32⟩ : BufTy).Contents (Elt F)) (y : (⟨S500000x1, .f32⟩ : BufTy).Contents (Elt F)) (dd : (⟨S500000x1, .f32⟩ : BufTy).Contents (Elt F)) (W1 : (⟨S1x8, .f32⟩ : BufTy).Contents (Elt F)) (b1 : (⟨S8, .f32⟩ : BufTy).Contents (Elt F)) (Wres : (⟨S1x8, .f32⟩ : BufTy).Contents (Elt F)) : (⟨S500000x8, .f32⟩ : BufTy).Contents (Elt F) :=
  have v29 := Host.dotGeneral dot_S500000x1_S1x8_S500000x8_1_0_0_1_n_n none agg W1
  have v30 := broadcastInDim S1x8 ![1] bcast_S8_S1x8_1 b1
  have v31 := broadcastInDim S500000x8 ![0, 1] bcast_S1x8_S500000x8_0_1 v30
  have v32 := addf v29 v31
  have v33 := broadcastInDim S500000x8 ![0, 1] bcast_S500000x1_S500000x8_0_1 dd
  have v34 := mulf v32 v33
  have v35 := Host.dotGeneral dot_S500000x1_S1x8_S500000x8_1_0_0_1_n_n none y Wres
  have v36 := addf v34 v35
  v36

noncomputable def normAct (r : (⟨S500000x8, .f32⟩ : BufTy).Contents (Elt F)) (g : (⟨S8, .f32⟩ : BufTy).Contents (Elt F)) (b : (⟨S8, .f32⟩ : BufTy).Contents (Elt F)) : (⟨S500000x8, .f32⟩ : BufTy).Contents (Elt F) :=
  have cst_10 : (⟨S_, .f32⟩ : BufTy).Contents (Elt F) := (constant S_ .f32 0x00000000#32)
  have v37 := Host.reduceAdd r cst_10 reducesTo_S500000x8_S500000_d1 h_S_
  have v38 := broadcastInDim S500000x1 ![0] bcast_S500000_S500000x1_0 v37
  have cst_11 : (⟨S_, .f32⟩ : BufTy).Contents (Elt F) := (constant S_ .f32 0x41000000#32)
  have v39 := broadcastInDim S500000x1 ![] bcast_S_S500000x1 cst_11
  have v40 := Host.divf v38 v39
  have c_12 : (⟨S_, .i32⟩ : BufTy).Contents (Elt F) := (constantI S_ 32 0#32)
  have call3_cst : (⟨S_, .f32⟩ : BufTy).Contents (Elt F) := (constant S_ .f32 0x00000000#32)
  have call3_v0 := Host.reduceAdd r call3_cst reducesTo_S500000x8_S500000_d1 h_S_
  have call3_v1 := broadcastInDim S500000x1 ![0] bcast_S500000_S500000x1_0 call3_v0
  have call3_cst_0 : (⟨S_, .f32⟩ : BufTy).Contents (Elt F) := (constant S_ .f32 0x41000000#32)
  have call3_v2 := broadcastInDim S500000x1 ![] bcast_S_S500000x1 call3_cst_0
  have call3_v3 := Host.divf call3_v1 call3_v2
  have call3_v4 := broadcastInDim S500000x8 ![0, 1] bcast_S500000x1_S500000x8_0_1 call3_v3
  have call3_v5 := subf r call3_v4
  have call3_v6 := mulf call3_v5 call3_v5
  have call3_v7 := sitofp .f32 c_12
  have call3_cst_1 : (⟨S_, .f32⟩ : BufTy).Contents (Elt F) := (constant S_ .f32 0x41000000#32)
  have call3_v8 := subf call3_cst_1 call3_v7
  have call3_cst_2 : (⟨S_, .f32⟩ : BufTy).Contents (Elt F) := (constant S_ .f32 0x00000000#32)
  have call3_v9 := Host.reduceAdd call3_v6 call3_cst_2 reducesTo_S500000x8_S500000_d1 h_S_
  have call3_v10 := broadcastInDim S500000x1 ![0] bcast_S500000_S500000x1_0 call3_v9
  have call3_v11 := broadcastInDim S500000x1 ![] bcast_S_S500000x1 call3_v8
  have call3_v12 := Host.divf call3_v10 call3_v11
  have call3_cst_3 : (⟨S_, .f32⟩ : BufTy).Contents (Elt F) := (constant S_ .f32 0x00000000#32)
  have call3_v13 := cmpf .ogt call3_v8 call3_cst_3
  have call3_cst_4 : (⟨S_, .f32⟩ : BufTy).Contents (Elt F) := (constant S_ .f32 0x7FC00000#32)
  have call3_call0_v0 := id call3_cst_4
  have call3_call0_v1 := broadcastInDim S500000x1 ![] bcast_S_S500000x1 call3_call0_v0
  have v41 := select (broadcastInDim S500000x1 ![] bcast_S_S500000x1 call3_v13) call3_v12 call3_call0_v1
  have v42 := broadcastInDim S500000x8 ![0, 1] bcast_S500000x1_S500000x8_0_1 v40
  have v43 := subf r v42
  have cst_13 : (⟨S_, .f32⟩ : BufTy).Contents (Elt F) := (constant S_ .f32 0x3727C5AC#32)
  have v44 := broadcastInDim S500000x1 ![] bcast_S_S500000x1 cst_13
  have v45 := addf v41 v44
  have v46 := Host.rsqrt v45
  have v47 := broadcastInDim S500000x8 ![0, 1] bcast_S500000x1_S500000x8_0_1 v46
  have v48 := mulf v43 v47
  have v49 := broadcastInDim S1x8 ![1] bcast_S8_S1x8_1 g
  have v50 := broadcastInDim S500000x8 ![0, 1] bcast_S1x8_S500000x8_0_1 v49
  have v51 := mulf v48 v50
  have v52 := broadcastInDim S1x8 ![1] bcast_S8_S1x8_1 b
  have v53 := broadcastInDim S500000x8 ![0, 1] bcast_S1x8_S500000x8_0_1 v52
  have v54 := addf v51 v53
  v54

noncomputable def proj (z : (⟨S500000x8, .f32⟩ : BufTy).Contents (Elt F)) (a : (⟨S_, .f32⟩ : BufTy).Contents (Elt F)) (ds : (⟨S500000x1, .f32⟩ : BufTy).Contents (Elt F)) (W2 : (⟨S8x1, .f32⟩ : BufTy).Contents (Elt F)) (b2 : (⟨S1, .f32⟩ : BufTy).Contents (Elt F)) : (⟨S500000x1, .f32⟩ : BufTy).Contents (Elt F) :=
  have cst_14 : (⟨S_, .f32⟩ : BufTy).Contents (Elt F) := (constant S_ .f32 0x00000000#32)
  have v55 := broadcastInDim S500000x8 ![] bcast_S_S500000x8 cst_14
  have v56 := cmpf .oge z v55
  have v57 := broadcastInDim S500000x8 ![] bcast_S_S500000x8 a
  have v58 := mulf v57 z
  have v59 := select v56 z v58
  have v60 := broadcastInDim S500000x8 ![0, 1] bcast_S500000x1_S500000x8_0_1 ds
  have v61 := mulf v59 v60
  have v62 := Host.dotGeneral dot_S500000x8_S8x1_S500000x1_1_0_0_1_n_n none v61 W2
  have v63 := broadcastInDim S1x1 ![1] bcast_S1_S1x1_1 b2
  have v64 := broadcastInDim S500000x1 ![0, 1] bcast_S1x1_S500000x1_0_1 v63
  have v65 := addf v62 v64
  v65

noncomputable def dense (agg : (⟨S500000x1, .f32⟩ : BufTy).Contents (Elt F)) (y : (⟨S500000x1, .f32⟩ : BufTy).Contents (Elt F)) (ds : (⟨S500000x1, .f32⟩ : BufTy).Contents (Elt F)) (dd : (⟨S500000x1, .f32⟩ : BufTy).Contents (Elt F)) (W1 : (⟨S1x8, .f32⟩ : BufTy).Contents (Elt F)) (b1 : (⟨S8, .f32⟩ : BufTy).Contents (Elt F)) (Wres : (⟨S1x8, .f32⟩ : BufTy).Contents (Elt F)) (g : (⟨S8, .f32⟩ : BufTy).Contents (Elt F)) (b : (⟨S8, .f32⟩ : BufTy).Contents (Elt F)) (a : (⟨S_, .f32⟩ : BufTy).Contents (Elt F)) (W2 : (⟨S8x1, .f32⟩ : BufTy).Contents (Elt F)) (b2 : (⟨S1, .f32⟩ : BufTy).Contents (Elt F)) : (⟨S500000x1, .f32⟩ : BufTy).Contents (Elt F) :=
  proj (normAct (preNorm agg y dd W1 b1 Wres) g b) a ds W2 b2

noncomputable def roundB (x2 : (⟨S500000x1, .f32⟩ : BufTy).Contents (Elt F)) (y : (⟨S500000x1, .f32⟩ : BufTy).Contents (Elt F)) (dd : (⟨S500000x1, .f32⟩ : BufTy).Contents (Elt F)) (src : (⟨S16000000, .i32⟩ : BufTy).Contents (Elt F)) (dst : (⟨S16000000, .i32⟩ : BufTy).Contents (Elt F)) : (⟨S500000x1, .f32⟩ : BufTy).Contents (Elt F) :=
  addf y (mulf (aggCol x2 src dst) dd)

end Cert.ReferenceIdeal.Fn

end
-- ==== Proof.RefRun.lean ====
/- The idealized reference's run: a prologue and four rounds of five stretches, each read at the one buffer it computes; the states after k rounds are one recursive function of the arguments. -/
import proofs.«409853_j63763084476519_2_alg».proof.Proof.RefOps
import proofs.«409853_j63763084476519_2_alg».proof.Proof.RefFns
import proofs.«409853_j63763084476519_2_alg».proof.Proof.LibHostRun
import Idealize.ShloMosaic.Lib.StableHlo.Run
import Idealize.ShloMosaic.Lib.Pipeline.Regions
import Idealize.ShloMosaic.Lib.Pipeline.Frame

set_option maxRecDepth 16384

noncomputable section

namespace Cert.ReferenceIdeal.Run

open Cert.ReferenceIdeal Cert.ReferenceIdeal.Gen Cert.ReferenceIdeal.RunOps Idealize.ShloMosaic Idealize.ShloMosaic.TcCoe Idealize.SL.Sem
open Idealize.ShloMosaic.StableHlo Cert.LibHostRun

variable {F : FTy → Type} [FloatOps F]

abbrev allOps : List (HloOp τ sig (Elt F)) := (items (F := F)).flatten

theorem main_eq (c : Dev nD) : main (F := F) c = StableHlo.seq allOps :=
  (main_chain c).trans (chain_map_seq (items (F := F)))

theorem allOps_ok : (allOps : List (HloOp τ sig (Elt F))).Forall fun op => op.bufs ⊆ StableHlo.tcRefs τ sig ∧ op.fresh = ∅ :=
  forall_flatten _ items_ok

theorem scopedRefs_eq : (Finset.univ.filter fun b : Ref sig .tc => b.isScoped) = ∅ := by decide
theorem scopedSems_eq : (Finset.univ.filter fun sm : SemLoc sig => sm.isScoped .tc) = ∅ := by decide

theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after allOps (launchContents m d) (Proc.devRef .tc b) :=
  run_seq scopedRefs_eq scopedSems_eq defs main (fun _ => allOps) main_eq (fun _ => List.Forall.imp (fun _ h => h.1) allOps_ok) m ρ
    (fun _ op hop => (List.forall_iff_forall_mem.mp allOps_ok op hop).2)

def pro : List (HloOp τ sig (Elt F)) := w0_i0 ++ w0_i1 ++ w0_i2 ++ w0_i3 ++ w0_i4 ++ w0_i5
def pro_W : List (Ref sig .tc) := [main_cst, main_v0, main_cst_0, main_v1, main_v2, main_v3, main_cst_1, main_call0_v0, main_call0_v1, main_v4, main_cst_2, main_v5, main_v6, main_v7, main_cst_3, main_call1_v0, main_call1_v1, main_v8, main_cst_4, main_v9, main_v10, main_v11, main_cst_5, main_v12, main_v13, main_v14, main_cst_6, main_v15, main_v16, main_cst_7, main_call2_v0, main_v17]
theorem pro_writes : (pro : List (HloOp τ sig (Elt F))).map HloOp.writes = pro_W.map fun r => {Proc.devRef (τ := τ) .tc r} := rfl
def r1a : List (HloOp τ sig (Elt F)) := w0_i6
def r1a_W : List (Ref sig .tc) := [main_v18, main_c, main_v19, main_v20, main_c_8, main_v21, main_v22, main_v23, main_v24, main_v25, main_cst_9, main_v26, main_v27, main_v28]
theorem r1a_writes : (r1a : List (HloOp τ sig (Elt F))).map HloOp.writes = r1a_W.map fun r => {Proc.devRef (τ := τ) .tc r} := rfl
def r1b : List (HloOp τ sig (Elt F)) := w0_i7
def r1b_W : List (Ref sig .tc) := [main_v29, main_v30, main_v31, main_v32, main_v33, main_v34, main_v35, main_v36]
theorem r1b_writes : (r1b : List (HloOp τ sig (Elt F))).map HloOp.writes = r1b_W.map fun r => {Proc.devRef (τ := τ) .tc r} := rfl
def r1c : List (HloOp τ sig (Elt F)) := w0_i8 ++ w0_i9 ++ w0_i10 ++ w0_i11 ++ w1_i0
def r1c_W : List (Ref sig .tc) := [main_cst_10, main_v37, main_v38, main_cst_11, main_v39, main_v40, main_c_12, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v41, main_v42, main_v43, main_cst_13, main_v44, main_v45, main_v46, main_v47, main_v48, main_v49, main_v50, main_v51, main_v52, main_v53, main_v54]
theorem r1c_writes : (r1c : List (HloOp τ sig (Elt F))).map HloOp.writes = r1c_W.map fun r => {Proc.devRef (τ := τ) .tc r} := rfl
def r1d : List (HloOp τ sig (Elt F)) := w1_i1 ++ w1_i2 ++ w1_i3
def r1d_W : List (Ref sig .tc) := [main_cst_14, main_v55, main_v56, main_v57, main_v58, main_v59, main_v60, main_v61, main_v62, main_v63, main_v64, main_v65]
theorem r1d_writes : (r1d : List (HloOp τ sig (Elt F))).map HloOp.writes = r1d_W.map fun r => {Proc.devRef (τ := τ) .tc r} := rfl
def r1e : List (HloOp τ sig (Elt F)) := w1_i4
def r1e_W : List (Ref sig .tc) := [main_c_15, main_v66, main_v67, main_c_16, main_v68, main_v69, main_v70, main_v71, main_v72, main_cst_17, main_v73, main_v74, main_v75, main_v76, main_v77]
theorem r1e_writes : (r1e : List (HloOp τ sig (Elt F))).map HloOp.writes = r1e_W.map fun r => {Proc.devRef (τ := τ) .tc r} := rfl
def r2a : List (HloOp τ sig (Elt F)) := w1_i5
def r2a_W : List (Ref sig .tc) := [main_v78, main_c_18, main_v79, main_v80, main_c_19, main_v81, main_v82, main_v83, main_v84, main_v85, main_cst_20, main_v86, main_v87, main_v88]
theorem r2a_writes : (r2a : List (HloOp τ sig (Elt F))).map HloOp.writes = r2a_W.map fun r => {Proc.devRef (τ := τ) .tc r} := rfl
def r2b : List (HloOp τ sig (Elt F)) := w1_i6
def r2b_W : List (Ref sig .tc) := [main_v89, main_v90, main_v91, main_v92, main_v93, main_v94, main_v95, main_v96]
theorem r2b_writes : (r2b : List (HloOp τ sig (Elt F))).map HloOp.writes = r2b_W.map fun r => {Proc.devRef (τ := τ) .tc r} := rfl
def r2c : List (HloOp τ sig (Elt F)) := w2_i0 ++ w2_i1 ++ w2_i2 ++ w2_i3
def r2c_W : List (Ref sig .tc) := [main_cst_21, main_v97, main_v98, main_cst_22, main_v99, main_v100, main_c_23, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v101, main_v102, main_v103, main_cst_24, main_v104, main_v105, main_v106, main_v107, main_v108, main_v109, main_v110, main_v111, main_v112, main_v113, main_v114]
theorem r2c_writes : (r2c : List (HloOp τ sig (Elt F))).map HloOp.writes = r2c_W.map fun r => {Proc.devRef (τ := τ) .tc r} := rfl
def r2d : List (HloOp τ sig (Elt F)) := w2_i4 ++ w2_i5 ++ w2_i6
def r2d_W : List (Ref sig .tc) := [main_cst_25, main_v115, main_v116, main_v117, main_v118, main_v119, main_v120, main_v121, main_v122, main_v123, main_v124, main_v125]
theorem r2d_writes : (r2d : List (HloOp τ sig (Elt F))).map HloOp.writes = r2d_W.map fun r => {Proc.devRef (τ := τ) .tc r} := rfl
def r2e : List (HloOp τ sig (Elt F)) := w2_i7
def r2e_W : List (Ref sig .tc) := [main_c_26, main_v126, main_v127, main_c_27, main_v128, main_v129, main_v130, main_v131, main_v132, main_cst_28, main_v133, main_v134, main_v135, main_v136, main_v137]
theorem r2e_writes : (r2e : List (HloOp τ sig (Elt F))).map HloOp.writes = r2e_W.map fun r => {Proc.devRef (τ := τ) .tc r} := rfl
def r3a : List (HloOp τ sig (Elt F)) := w2_i8 ++ w3_i0
def r3a_W : List (Ref sig .tc) := [main_v138, main_c_29, main_v139, main_v140, main_c_30, main_v141, main_v142, main_v143, main_v144, main_v145, main_cst_31, main_v146, main_v147, main_v148]
theorem r3a_writes : (r3a : List (HloOp τ sig (Elt F))).map HloOp.writes = r3a_W.map fun r => {Proc.devRef (τ := τ) .tc r} := rfl
def r3b : List (HloOp τ sig (Elt F)) := w3_i1
def r3b_W : List (Ref sig .tc) := [main_v149, main_v150, main_v151, main_v152, main_v153, main_v154, main_v155, main_v156]
theorem r3b_writes : (r3b : List (HloOp τ sig (Elt F))).map HloOp.writes = r3b_W.map fun r => {Proc.devRef (τ := τ) .tc r} := rfl
def r3c : List (HloOp τ sig (Elt F)) := w3_i2 ++ w3_i3 ++ w3_i4 ++ w3_i5
def r3c_W : List (Ref sig .tc) := [main_cst_32, main_v157, main_v158, main_cst_33, main_v159, main_v160, main_c_34, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_v12, main_call7_cst_3, main_call7_v13, main_call7_cst_4, main_call7_call0_v0, main_call7_call0_v1, main_v161, main_v162, main_v163, main_cst_35, main_v164, main_v165, main_v166, main_v167, main_v168, main_v169, main_v170, main_v171, main_v172, main_v173, main_v174]
theorem r3c_writes : (r3c : List (HloOp τ sig (Elt F))).map HloOp.writes = r3c_W.map fun r => {Proc.devRef (τ := τ) .tc r} := rfl
def r3d : List (HloOp τ sig (Elt F)) := w3_i6 ++ w3_i7 ++ w3_i8
def r3d_W : List (Ref sig .tc) := [main_cst_36, main_v175, main_v176, main_v177, main_v178, main_v179, main_v180, main_v181, main_v182, main_v183, main_v184, main_v185]
theorem r3d_writes : (r3d : List (HloOp τ sig (Elt F))).map HloOp.writes = r3d_W.map fun r => {Proc.devRef (τ := τ) .tc r} := rfl
def r3e : List (HloOp τ sig (Elt F)) := w3_i9
def r3e_W : List (Ref sig .tc) := [main_c_37, main_v186, main_v187, main_c_38, main_v188, main_v189, main_v190, main_v191, main_v192, main_cst_39, main_v193, main_v194, main_v195, main_v196, main_v197]
theorem r3e_writes : (r3e : List (HloOp τ sig (Elt F))).map HloOp.writes = r3e_W.map fun r => {Proc.devRef (τ := τ) .tc r} := rfl
def r4a : List (HloOp τ sig (Elt F)) := w4_i0
def r4a_W : List (Ref sig .tc) := [main_v198, main_c_40, main_v199, main_v200, main_c_41, main_v201, main_v202, main_v203, main_v204, main_v205, main_cst_42, main_v206, main_v207, main_v208]
theorem r4a_writes : (r4a : List (HloOp τ sig (Elt F))).map HloOp.writes = r4a_W.map fun r => {Proc.devRef (τ := τ) .tc r} := rfl
def r4b : List (HloOp τ sig (Elt F)) := w4_i1
def r4b_W : List (Ref sig .tc) := [main_v209, main_v210, main_v211, main_v212, main_v213, main_v214, main_v215, main_v216]
theorem r4b_writes : (r4b : List (HloOp τ sig (Elt F))).map HloOp.writes = r4b_W.map fun r => {Proc.devRef (τ := τ) .tc r} := rfl
def r4c : List (HloOp τ sig (Elt F)) := w4_i2 ++ w4_i3 ++ w4_i4 ++ w4_i5
def r4c_W : List (Ref sig .tc) := [main_cst_43, main_v217, main_v218, main_cst_44, main_v219, main_v220, main_c_45, main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_v12, main_call9_cst_3, main_call9_v13, main_call9_cst_4, main_call9_call0_v0, main_call9_call0_v1, main_v221, main_v222, main_v223, main_cst_46, main_v224, main_v225, main_v226, main_v227, main_v228, main_v229, main_v230, main_v231, main_v232, main_v233, main_v234]
theorem r4c_writes : (r4c : List (HloOp τ sig (Elt F))).map HloOp.writes = r4c_W.map fun r => {Proc.devRef (τ := τ) .tc r} := rfl
def r4d : List (HloOp τ sig (Elt F)) := w4_i6 ++ w4_i7 ++ w4_i8
def r4d_W : List (Ref sig .tc) := [main_cst_47, main_v235, main_v236, main_v237, main_v238, main_v239, main_v240, main_v241, main_v242, main_v243, main_v244, main_v245]
theorem r4d_writes : (r4d : List (HloOp τ sig (Elt F))).map HloOp.writes = r4d_W.map fun r => {Proc.devRef (τ := τ) .tc r} := rfl
def r4e : List (HloOp τ sig (Elt F)) := w4_i9 ++ w5_i0
def r4e_W : List (Ref sig .tc) := [main_c_48, main_v246, main_v247, main_c_49, main_v248, main_v249, main_v250, main_v251, main_v252, main_cst_50, main_v253, main_v254, main_v255, main_v256, main_v257]
theorem r4e_writes : (r4e : List (HloOp τ sig (Elt F))).map HloOp.writes = r4e_W.map fun r => {Proc.devRef (τ := τ) .tc r} := rfl

theorem allOps_eq : (allOps : List (HloOp τ sig (Elt F))) = pro ++ r1a ++ r1b ++ r1c ++ r1d ++ r1e ++ r2a ++ r2b ++ r2c ++ r2d ++ r2e ++ r3a ++ r3b ++ r3c ++ r3d ++ r3e ++ r4a ++ r4b ++ r4c ++ r4d ++ r4e := by
  simp only [allOps, items, pro, r1a, r1b, r1c, r1d, r1e, r2a, r2b, r2c, r2d, r2e, r3a, r3b, r3c, r3d, r3e, r4a, r4b, r4c, r4d, r4e, List.flatten_cons, List.flatten_nil, List.append_assoc, List.append_nil]

theorem pro_v17 (V : Valuation τ sig (Elt F)) : after pro V (Proc.devRef .tc main_v17) = Fn.y0 (V (Proc.devRef .tc main_arg0)) := by
  simp only [pro, w0_i0, w0_i1, w0_i2, w0_i3, w0_i4, w0_i5, List.cons_append, List.nil_append]
  after_results_simp
  rfl
theorem pro_v11 (V : Valuation τ sig (Elt F)) : after pro V (Proc.devRef .tc main_v11) = Fn.degScale (V (Proc.devRef .tc main_arg1)) := by
  simp only [pro, w0_i0, w0_i1, w0_i2, w0_i3, w0_i4, w0_i5, List.cons_append, List.nil_append]
  after_results_simp
  rfl
theorem pro_v14 (V : Valuation τ sig (Elt F)) : after pro V (Proc.devRef .tc main_v14) = Fn.degScale (V (Proc.devRef .tc main_arg2)) := by
  simp only [pro, w0_i0, w0_i1, w0_i2, w0_i3, w0_i4, w0_i5, List.cons_append, List.nil_append]
  after_results_simp
  rfl
theorem r1a_out (V : Valuation τ sig (Elt F)) : after r1a V (Proc.devRef .tc main_v28) = Fn.roundA (V (Proc.devRef .tc main_v17)) (V (Proc.devRef .tc main_v11)) (V (Proc.devRef .tc main_arg1)) (V (Proc.devRef .tc main_arg2)) := by
  simp only [r1a, w0_i6, List.cons_append, List.nil_append]
  after_results_simp
  rfl
theorem r1b_out (V : Valuation τ sig (Elt F)) : after r1b V (Proc.devRef .tc main_v36) = Fn.preNorm (V (Proc.devRef .tc main_v28)) (V (Proc.devRef .tc main_v17)) (V (Proc.devRef .tc main_v14)) (V (Proc.devRef .tc main_arg3)) (V (Proc.devRef .tc main_arg4)) (V (Proc.devRef .tc main_arg5)) := by
  simp only [r1b, w0_i7, List.cons_append, List.nil_append]
  after_results_simp
  rfl
theorem r1c_out (V : Valuation τ sig (Elt F)) : after r1c V (Proc.devRef .tc main_v54) = Fn.normAct (V (Proc.devRef .tc main_v36)) (V (Proc.devRef .tc main_arg6)) (V (Proc.devRef .tc main_arg7)) := by
  simp only [r1c, w0_i8, w0_i9, w0_i10, w0_i11, w1_i0, List.cons_append, List.nil_append]
  after_results_simp
  rfl
theorem r1d_out (V : Valuation τ sig (Elt F)) : after r1d V (Proc.devRef .tc main_v65) = Fn.proj (V (Proc.devRef .tc main_v54)) (V (Proc.devRef .tc main_arg8)) (V (Proc.devRef .tc main_v11)) (V (Proc.devRef .tc main_arg9)) (V (Proc.devRef .tc main_arg10)) := by
  simp only [r1d, w1_i1, w1_i2, w1_i3, List.cons_append, List.nil_append]
  after_results_simp
  rfl
theorem r1e_out (V : Valuation τ sig (Elt F)) : after r1e V (Proc.devRef .tc main_v77) = Fn.roundB (V (Proc.devRef .tc main_v65)) (V (Proc.devRef .tc main_v17)) (V (Proc.devRef .tc main_v14)) (V (Proc.devRef .tc main_arg1)) (V (Proc.devRef .tc main_arg2)) := by
  simp only [r1e, w1_i4, List.cons_append, List.nil_append]
  after_results_simp
  rfl
theorem r2a_out (V : Valuation τ sig (Elt F)) : after r2a V (Proc.devRef .tc main_v88) = Fn.roundA (V (Proc.devRef .tc main_v77)) (V (Proc.devRef .tc main_v11)) (V (Proc.devRef .tc main_arg1)) (V (Proc.devRef .tc main_arg2)) := by
  simp only [r2a, w1_i5, List.cons_append, List.nil_append]
  after_results_simp
  rfl
theorem r2b_out (V : Valuation τ sig (Elt F)) : after r2b V (Proc.devRef .tc main_v96) = Fn.preNorm (V (Proc.devRef .tc main_v88)) (V (Proc.devRef .tc main_v77)) (V (Proc.devRef .tc main_v14)) (V (Proc.devRef .tc main_arg3)) (V (Proc.devRef .tc main_arg4)) (V (Proc.devRef .tc main_arg5)) := by
  simp only [r2b, w1_i6, List.cons_append, List.nil_append]
  after_results_simp
  rfl
theorem r2c_out (V : Valuation τ sig (Elt F)) : after r2c V (Proc.devRef .tc main_v114) = Fn.normAct (V (Proc.devRef .tc main_v96)) (V (Proc.devRef .tc main_arg6)) (V (Proc.devRef .tc main_arg7)) := by
  simp only [r2c, w2_i0, w2_i1, w2_i2, w2_i3, List.cons_append, List.nil_append]
  after_results_simp
  rfl
theorem r2d_out (V : Valuation τ sig (Elt F)) : after r2d V (Proc.devRef .tc main_v125) = Fn.proj (V (Proc.devRef .tc main_v114)) (V (Proc.devRef .tc main_arg8)) (V (Proc.devRef .tc main_v11)) (V (Proc.devRef .tc main_arg9)) (V (Proc.devRef .tc main_arg10)) := by
  simp only [r2d, w2_i4, w2_i5, w2_i6, List.cons_append, List.nil_append]
  after_results_simp
  rfl
theorem r2e_out (V : Valuation τ sig (Elt F)) : after r2e V (Proc.devRef .tc main_v137) = Fn.roundB (V (Proc.devRef .tc main_v125)) (V (Proc.devRef .tc main_v77)) (V (Proc.devRef .tc main_v14)) (V (Proc.devRef .tc main_arg1)) (V (Proc.devRef .tc main_arg2)) := by
  simp only [r2e, w2_i7, List.cons_append, List.nil_append]
  after_results_simp
  rfl
theorem r3a_out (V : Valuation τ sig (Elt F)) : after r3a V (Proc.devRef .tc main_v148) = Fn.roundA (V (Proc.devRef .tc main_v137)) (V (Proc.devRef .tc main_v11)) (V (Proc.devRef .tc main_arg1)) (V (Proc.devRef .tc main_arg2)) := by
  simp only [r3a, w2_i8, w3_i0, List.cons_append, List.nil_append]
  after_results_simp
  rfl
theorem r3b_out (V : Valuation τ sig (Elt F)) : after r3b V (Proc.devRef .tc main_v156) = Fn.preNorm (V (Proc.devRef .tc main_v148)) (V (Proc.devRef .tc main_v137)) (V (Proc.devRef .tc main_v14)) (V (Proc.devRef .tc main_arg3)) (V (Proc.devRef .tc main_arg4)) (V (Proc.devRef .tc main_arg5)) := by
  simp only [r3b, w3_i1, List.cons_append, List.nil_append]
  after_results_simp
  rfl
theorem r3c_out (V : Valuation τ sig (Elt F)) : after r3c V (Proc.devRef .tc main_v174) = Fn.normAct (V (Proc.devRef .tc main_v156)) (V (Proc.devRef .tc main_arg6)) (V (Proc.devRef .tc main_arg7)) := by
  simp only [r3c, w3_i2, w3_i3, w3_i4, w3_i5, List.cons_append, List.nil_append]
  after_results_simp
  rfl
theorem r3d_out (V : Valuation τ sig (Elt F)) : after r3d V (Proc.devRef .tc main_v185) = Fn.proj (V (Proc.devRef .tc main_v174)) (V (Proc.devRef .tc main_arg8)) (V (Proc.devRef .tc main_v11)) (V (Proc.devRef .tc main_arg9)) (V (Proc.devRef .tc main_arg10)) := by
  simp only [r3d, w3_i6, w3_i7, w3_i8, List.cons_append, List.nil_append]
  after_results_simp
  rfl
theorem r3e_out (V : Valuation τ sig (Elt F)) : after r3e V (Proc.devRef .tc main_v197) = Fn.roundB (V (Proc.devRef .tc main_v185)) (V (Proc.devRef .tc main_v137)) (V (Proc.devRef .tc main_v14)) (V (Proc.devRef .tc main_arg1)) (V (Proc.devRef .tc main_arg2)) := by
  simp only [r3e, w3_i9, List.cons_append, List.nil_append]
  after_results_simp
  rfl
theorem r4a_out (V : Valuation τ sig (Elt F)) : after r4a V (Proc.devRef .tc main_v208) = Fn.roundA (V (Proc.devRef .tc main_v197)) (V (Proc.devRef .tc main_v11)) (V (Proc.devRef .tc main_arg1)) (V (Proc.devRef .tc main_arg2)) := by
  simp only [r4a, w4_i0, List.cons_append, List.nil_append]
  after_results_simp
  rfl
theorem r4b_out (V : Valuation τ sig (Elt F)) : after r4b V (Proc.devRef .tc main_v216) = Fn.preNorm (V (Proc.devRef .tc main_v208)) (V (Proc.devRef .tc main_v197)) (V (Proc.devRef .tc main_v14)) (V (Proc.devRef .tc main_arg3)) (V (Proc.devRef .tc main_arg4)) (V (Proc.devRef .tc main_arg5)) := by
  simp only [r4b, w4_i1, List.cons_append, List.nil_append]
  after_results_simp
  rfl
theorem r4c_out (V : Valuation τ sig (Elt F)) : after r4c V (Proc.devRef .tc main_v234) = Fn.normAct (V (Proc.devRef .tc main_v216)) (V (Proc.devRef .tc main_arg6)) (V (Proc.devRef .tc main_arg7)) := by
  simp only [r4c, w4_i2, w4_i3, w4_i4, w4_i5, List.cons_append, List.nil_append]
  after_results_simp
  rfl
theorem r4d_out (V : Valuation τ sig (Elt F)) : after r4d V (Proc.devRef .tc main_v245) = Fn.proj (V (Proc.devRef .tc main_v234)) (V (Proc.devRef .tc main_arg8)) (V (Proc.devRef .tc main_v11)) (V (Proc.devRef .tc main_arg9)) (V (Proc.devRef .tc main_arg10)) := by
  simp only [r4d, w4_i6, w4_i7, w4_i8, List.cons_append, List.nil_append]
  after_results_simp
  rfl
theorem r4e_out (V : Valuation τ sig (Elt F)) : after r4e V (Proc.devRef .tc main_v257) = Fn.roundB (V (Proc.devRef .tc main_v245)) (V (Proc.devRef .tc main_v197)) (V (Proc.devRef .tc main_v14)) (V (Proc.devRef .tc main_arg1)) (V (Proc.devRef .tc main_arg2)) := by
  simp only [r4e, w4_i9, w5_i0, List.cons_append, List.nil_append]
  after_results_simp
  rfl

section Pure
variable (y : (⟨S500000x1, .f32⟩ : BufTy).Contents (Elt F)) (src dst : (⟨S16000000, .i32⟩ : BufTy).Contents (Elt F))
    (W1 : (⟨S1x8, .f32⟩ : BufTy).Contents (Elt F)) (b1 : (⟨S8, .f32⟩ : BufTy).Contents (Elt F)) (Wres : (⟨S1x8, .f32⟩ : BufTy).Contents (Elt F))
    (g b : (⟨S8, .f32⟩ : BufTy).Contents (Elt F)) (a : (⟨S_, .f32⟩ : BufTy).Contents (Elt F)) (W2 : (⟨S8x1, .f32⟩ : BufTy).Contents (Elt F))
    (b2 : (⟨S1, .f32⟩ : BufTy).Contents (Elt F))

theorem dense_eq (agg yy ds dd : (⟨S500000x1, .f32⟩ : BufTy).Contents (Elt F)) :
    Fn.dense agg yy ds dd W1 b1 Wres g b a W2 b2 = Fn.proj (Fn.normAct (Fn.preNorm agg yy dd W1 b1 Wres) g b) a ds W2 b2 := rfl

/-- The column of node states after `k` rounds. -/
def statesOf : Nat → (⟨S500000x1, .f32⟩ : BufTy).Contents (Elt F)
  | 0 => Fn.y0 y
  | k + 1 => Fn.roundB (Fn.dense (Fn.roundA (statesOf k) (Fn.degScale src) src dst) (statesOf k) (Fn.degScale src) (Fn.degScale dst) W1 b1 Wres g b a W2 b2)
      (statesOf k) (Fn.degScale dst) src dst
end Pure

variable (m : (ℓ : Loc nD τ sig) → Buf (Elt F) ℓ) (c : Dev nD)

abbrev states (k : Nat) : (⟨S500000x1, .f32⟩ : BufTy).Contents (Elt F) :=
  statesOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) (m ((c : Thread nD τ).loc main_arg10)) k
abbrev dsOf : (⟨S500000x1, .f32⟩ : BufTy).Contents (Elt F) := Fn.degScale (m ((c : Thread nD τ).loc main_arg1))
abbrev ddOf : (⟨S500000x1, .f32⟩ : BufTy).Contents (Elt F) := Fn.degScale (m ((c : Thread nD τ).loc main_arg2))

abbrev argRefs : List (Ref sig .tc) :=
  [main_arg0, main_arg1, main_arg2, main_arg3, main_arg4, main_arg5, main_arg6, main_arg7, main_arg8, main_arg9, main_arg10]

/-- What every round finds in place: the arguments as launched and the two degree scales. -/
structure Kept (V : Valuation τ sig (Elt F)) : Prop where
  arg : ∀ b ∈ argRefs, V (Proc.devRef .tc b) = m ((c : Thread nD τ).loc b)
  ds : V (Proc.devRef .tc main_v11) = dsOf m c
  dd : V (Proc.devRef .tc main_v14) = ddOf m c

variable {m c}

/-- A stretch that writes none of them leaves them in place. -/
theorem Kept.after {ops : List (HloOp τ sig (Elt F))} {W : List (Ref sig .tc)} {V : Valuation τ sig (Elt F)} (h : Kept m c V)
    (hW : ops.map HloOp.writes = W.map fun r => {Proc.devRef (τ := τ) .tc r})
    (hd : ∀ b ∈ main_v11 :: main_v14 :: argRefs, b ∉ W) : Kept m c (after ops V) :=
  ⟨fun b hb => (keep_of hW b (hd b (.tail _ (.tail _ hb))) V).trans (h.arg b hb),
    (keep_of hW _ (hd _ (.head _)) V).trans h.ds, (keep_of hW _ (hd _ (.tail _ (.head _))) V).trans h.dd⟩

theorem start : Kept m c (after pro (launchContents m c)) ∧ after pro (launchContents m c) (Proc.devRef .tc main_v17) = states m c 0 :=
  ⟨⟨fun b hb => keep_of pro_writes b ((by decide : ∀ b ∈ argRefs, b ∉ pro_W) b hb) _, pro_v11 _, pro_v14 _⟩, pro_v17 _⟩

/-- One round at values: five stretches, each a function of what it reads, compose to the next states. -/
theorem round_vals (k : Nat) {V Va Vb Vc Vd : Valuation τ sig (Elt F)}
    {s sa sd a x s' : (⟨S500000x1, .f32⟩ : BufTy).Contents (Elt F)} {p n : (⟨S500000x8, .f32⟩ : BufTy).Contents (Elt F)}
    (hK : Kept m c V) (ha : Kept m c Va) (hb : Kept m c Vb) (hc : Kept m c Vc) (hd : Kept m c Vd)
    (hs : s = states m c k) (hsa : sa = s) (hsd : sd = s)
    (oa : a = Fn.roundA s (V (Proc.devRef .tc main_v11)) (V (Proc.devRef .tc main_arg1)) (V (Proc.devRef .tc main_arg2)))
    (ob : p = Fn.preNorm a sa (Va (Proc.devRef .tc main_v14)) (Va (Proc.devRef .tc main_arg3)) (Va (Proc.devRef .tc main_arg4)) (Va (Proc.devRef .tc main_arg5)))
    (oc : n = Fn.normAct p (Vb (Proc.devRef .tc main_arg6)) (Vb (Proc.devRef .tc main_arg7)))
    (od : x = Fn.proj n (Vc (Proc.devRef .tc main_arg8)) (Vc (Proc.devRef .tc main_v11)) (Vc (Proc.devRef .tc main_arg9)) (Vc (Proc.devRef .tc main_arg10)))
    (oe : s' = Fn.roundB x sd (Vd (Proc.devRef .tc main_v14)) (Vd (Proc.devRef .tc main_arg1)) (Vd (Proc.devRef .tc main_arg2))) :
    s' = states m c (k + 1) := by
  rw [oe, od, oc, ob, oa, hsd, hsa, hs, hd.dd, ha.dd, hc.ds, hK.ds,
    hd.arg main_arg1 (by decide), hd.arg main_arg2 (by decide), hc.arg main_arg8 (by decide), hc.arg main_arg9 (by decide),
    hc.arg main_arg10 (by decide), hb.arg main_arg6 (by decide), hb.arg main_arg7 (by decide), ha.arg main_arg3 (by decide),
    ha.arg main_arg4 (by decide), ha.arg main_arg5 (by decide), hK.arg main_arg1 (by decide), hK.arg main_arg2 (by decide)]
  rfl

theorem round1 {V : Valuation τ sig (Elt F)} (h : Kept m c V ∧ V (Proc.devRef .tc main_v17) = states m c 0) :
    Kept m c (after r1e (after r1d (after r1c (after r1b (after r1a V))))) ∧ after r1e (after r1d (after r1c (after r1b (after r1a V)))) (Proc.devRef .tc main_v77) = states m c 1 :=
  have ha := h.1.after r1a_writes (by decide)
  have hb := ha.after r1b_writes (by decide)
  have hc := hb.after r1c_writes (by decide)
  have hd := hc.after r1d_writes (by decide)
  have sa := keep_of r1a_writes main_v17 (by decide) V
  ⟨hd.after r1e_writes (by decide), round_vals 0 h.1 ha hb hc hd h.2 sa
    ((keep_of r1d_writes main_v17 (by decide) _).trans ((keep_of r1c_writes main_v17 (by decide) _).trans ((keep_of r1b_writes main_v17 (by decide) _).trans sa)))
    (r1a_out _) (r1b_out _) (r1c_out _) (r1d_out _) (r1e_out _)⟩

theorem round2 {V : Valuation τ sig (Elt F)} (h : Kept m c V ∧ V (Proc.devRef .tc main_v77) = states m c 1) :
    Kept m c (after r2e (after r2d (after r2c (after r2b (after r2a V))))) ∧ after r2e (after r2d (after r2c (after r2b (after r2a V)))) (Proc.devRef .tc main_v137) = states m c 2 :=
  have ha := h.1.after r2a_writes (by decide)
  have hb := ha.after r2b_writes (by decide)
  have hc := hb.after r2c_writes (by decide)
  have hd := hc.after r2d_writes (by decide)
  have sa := keep_of r2a_writes main_v77 (by decide) V
  ⟨hd.after r2e_writes (by decide), round_vals 1 h.1 ha hb hc hd h.2 sa
    ((keep_of r2d_writes main_v77 (by decide) _).trans ((keep_of r2c_writes main_v77 (by decide) _).trans ((keep_of r2b_writes main_v77 (by decide) _).trans sa)))
    (r2a_out _) (r2b_out _) (r2c_out _) (r2d_out _) (r2e_out _)⟩

theorem round3 {V : Valuation τ sig (Elt F)} (h : Kept m c V ∧ V (Proc.devRef .tc main_v137) = states m c 2) :
    Kept m c (after r3e (after r3d (after r3c (after r3b (after r3a V))))) ∧ after r3e (after r3d (after r3c (after r3b (after r3a V)))) (Proc.devRef .tc main_v197) = states m c 3 :=
  have ha := h.1.after r3a_writes (by decide)
  have hb := ha.after r3b_writes (by decide)
  have hc := hb.after r3c_writes (by decide)
  have hd := hc.after r3d_writes (by decide)
  have sa := keep_of r3a_writes main_v137 (by decide) V
  ⟨hd.after r3e_writes (by decide), round_vals 2 h.1 ha hb hc hd h.2 sa
    ((keep_of r3d_writes main_v137 (by decide) _).trans ((keep_of r3c_writes main_v137 (by decide) _).trans ((keep_of r3b_writes main_v137 (by decide) _).trans sa)))
    (r3a_out _) (r3b_out _) (r3c_out _) (r3d_out _) (r3e_out _)⟩

theorem round4 {V : Valuation τ sig (Elt F)} (h : Kept m c V ∧ V (Proc.devRef .tc main_v197) = states m c 3) :
    Kept m c (after r4e (after r4d (after r4c (after r4b (after r4a V))))) ∧ after r4e (after r4d (after r4c (after r4b (after r4a V)))) (Proc.devRef .tc main_v257) = states m c 4 :=
  have ha := h.1.after r4a_writes (by decide)
  have hb := ha.after r4b_writes (by decide)
  have hc := hb.after r4c_writes (by decide)
  have hd := hc.after r4d_writes (by decide)
  have sa := keep_of r4a_writes main_v197 (by decide) V
  ⟨hd.after r4e_writes (by decide), round_vals 3 h.1 ha hb hc hd h.2 sa
    ((keep_of r4d_writes main_v197 (by decide) _).trans ((keep_of r4c_writes main_v197 (by decide) _).trans ((keep_of r4b_writes main_v197 (by decide) _).trans sa)))
    (r4a_out _) (r4b_out _) (r4c_out _) (r4d_out _) (r4e_out _)⟩

variable (m c)

theorem after_allOps (V : Valuation τ sig (Elt F)) : after allOps V = after r4e (after r4d (after r4c (after r4b (after r4a (after r3e (after r3d (after r3c (after r3b (after r3a (after r2e (after r2d (after r2c (after r2b (after r2a (after r1e (after r1d (after r1c (after r1b (after r1a (after pro V)))))))))))))))))))) := by
  rw [allOps_eq]
  simp only [StableHlo.after_append]

/-- Every weakly fair execution ends, nothing faulting, with the result at the states after four rounds and the arguments as launched. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v257) = states m c 4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => by
    obtain ⟨K, S⟩ := round4 (round3 (round2 (round1 (start (m := m) (c := c)))))
    rw [← after_allOps] at K S
    refine ⟨(h c _).trans S, ?_, ?_, ?_, ?_, ?_, ?_, ?_, ?_, ?_, ?_, ?_⟩ <;> exact (h c _).trans (K.arg _ (by decide)))
    (run_all m ρ)

end Cert.ReferenceIdeal.Run

end
-- ==== Proof.Spec.lean ====
/- The per-node mathematics both programs share, on the extended reals. -/
import Idealize.ShloMosaic.PureOps.Ideal

noncomputable section

open scoped BigOperators

namespace Cert.Spec

open Idealize.ShloMosaic

abbrev eight : EReal := Ideal.ofBits .f32 0x41000000#32

abbrev eps : EReal := Ideal.ofBits .f32 0x3727C5AC#32

abbrev fzero : EReal := Ideal.ofBits .f32 0x00000000#32

def pre (agg h dd : EReal) (w1 b1 wr : Fin 8 → EReal) (k : Fin 8) : EReal :=
  (w1 k * agg + b1 k) * dd + wr k * h

def mean8 (r : Fin 8 → EReal) : EReal := Ideal.div (∑ k, r k) eight

def cen (r : Fin 8 → EReal) (k : Fin 8) : EReal := r k - mean8 r

def lnorm (r g b : Fin 8 → EReal) (k : Fin 8) : EReal :=
  cen r k * Ideal.rsqrt (mean8 (fun j => cen r j * cen r j) + eps) * g k + b k

def prelu (a x : EReal) : EReal :=
  Scalar.select (FloatOps.cmpf (F := Ideal) (φ := .f32) .oge x fzero) x (a * x)

def node (agg h ds dd : EReal) (w1 b1 wr g b : Fin 8 → EReal) (a : EReal) (w2 : Fin 8 → EReal) (b2 : EReal) : EReal :=
  (∑ k, prelu a (lnorm (pre agg h dd w1 b1 wr) g b k) * ds * w2 k) + b2

end Cert.Spec

end
-- ==== Proof.KerDense.lean ====
/- The kernel body read at one lane: every operation is pointwise, a broadcast, or a sum over the eight channels of one lane, so at lane n the stored row is Spec.node of lane n's inputs. -/
import proofs.«409853_j63763084476519_2_alg».proof.Proof.Gen.KernelIdeal.Frame
import proofs.«409853_j63763084476519_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Dense

open Cert.KernelIdeal Cert.KernelIdeal.Gen Idealize.ShloMosaic Idealize.ShloMosaic.ValueIdx

section Layout
variable {α : Type}

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Layout

theorem rowsum_apply {N : ℕ} (src : FVec Ideal ⟨2, ![8, N]⟩ .f32) (ax : List (Fin (⟨2, ![8, N]⟩ : Shape).rank))
    (h : Shape.Reduces (⟨2, ![8, N]⟩ : Shape) ax ⟨1, ![N]⟩) (hφ : FKind.Formats .f32)
    (hacc : (0x00000000#32 : BitVec 32) = 0x00000000#32) (n : Fin N) (hax : ax = [0]) :
    multiReduction (F := Ideal) .add ax ⟨1, ![N]⟩ src 0x00000000#32 h hφ hacc (ix1 n) = ∑ k : Fin 8, src (ix2 k n) := by
  subst hax
  refine (Ideal.multiReduction_add_single src 0x00000000#32 h hφ hacc (ix1 n)).trans ?_
  show (∑ k : Fin 8, src (h.lift (ix1 n) k)) = _
  refine Finset.sum_congr rfl fun k _ => congrArg src ?_
  funext c
  match c with
  | ⟨0, _⟩ => exact Fin.ext rfl
  | ⟨1, _⟩ => exact Fin.ext rfl

theorem rsqrt_apply {s : Shape} {φ : FTy} (a : FVec Ideal s φ) (i : s.Idx) :
    Idealize.ShloMosaic.rsqrt a i = Ideal.rsqrt (a i) := rfl

theorem pay7_apply (v0 v2 v6 : Vec Ideal S1x500000 .f32) (v8 v10 v12 : Vec Ideal S8x1 .f32)
    (k : Fin 8) (n : Fin 500000) :
    k0_pay7 (F := Ideal) v0 v2 v6 v8 v10 v12 (ix2 k n)
      = Cert.Spec.pre (v0 (ix2 (0 : Fin 1) n)) (v2 (ix2 (0 : Fin 1) n)) (v6 (ix2 (0 : Fin 1) n))
          (fun k => v8 (ix2 k (0 : Fin 1))) (fun k => v10 (ix2 k (0 : Fin 1))) (fun k => v12 (ix2 k (0 : Fin 1))) k := by
  unfold k0_pay7 Cert.Spec.pre
  simp only [shapeCast_self, addf_apply, mulf_apply, broadcastTo_a1_ab_apply, broadcastTo_1b_ab_apply]

theorem pay1_apply (v5 : FVec Ideal S1x500000 .f32) (v15 v17 : FVec Ideal S8x1 .f32) (v19 : FVec Ideal S1x1 .f32)
    (v20 : Vec Ideal S8x1 .f32) (v22 : FVec Ideal S1x1 .f32) (v33 : FVec Ideal S8x500000 .f32) (n : Fin 500000) :
    k0_pay1 (F := Ideal) v5 v15 v17 v19 v20 v22 v33 (ix2 (0 : Fin 1) n)
      = (∑ k : Fin 8, Cert.Spec.prelu (v19 (ix2 (0 : Fin 1) (0 : Fin 1)))
            (Cert.Spec.lnorm (fun k => v33 (ix2 k n)) (fun k => v15 (ix2 k (0 : Fin 1))) (fun k => v17 (ix2 k (0 : Fin 1))) k)
            * v5 (ix2 (0 : Fin 1) n) * v20 (ix2 k (0 : Fin 1)))
        + v22 (ix2 (0 : Fin 1) (0 : Fin 1)) := by
  unfold k0_pay1 Cert.Spec.prelu Cert.Spec.lnorm Cert.Spec.cen Cert.Spec.mean8
  simp only [addf_apply, mulf_apply, subf_apply, divf_apply, cmpf_apply, select_apply, broadcast_apply, rsqrt_apply,
    broadcastTo_a1_ab_apply, broadcastTo_1b_ab_apply, broadcastTo_11_ab_apply, shapeCast_a_1a_apply, rowsum_apply]
  rfl

theorem offsets_zero : (![0, 0] : Fin 2 → Nat) = fun _ => 0 :=
  funext fun a => match a with | ⟨0, _⟩ => rfl | ⟨1, _⟩ => rfl

theorem out0_12_apply (x0 x1 x2 x3 : Vec Ideal S1x500000 .f32) (x4 x5 x6 x7 x8 : Vec Ideal S8x1 .f32)
    (x9 : Vec Ideal S1x1 .f32) (x10 : Vec Ideal S8x1 .f32) (x11 : Vec Ideal S1x1 .f32) (n : Fin 500000) :
    out0_12 (F := Ideal) x0 x1 x2 x3 x4 x5 x6 x7 x8 x9 x10 x11 (ix2 (0 : Fin 1) n)
      = Cert.Spec.node (x0 (ix2 (0 : Fin 1) n)) (x1 (ix2 (0 : Fin 1) n)) (x2 (ix2 (0 : Fin 1) n)) (x3 (ix2 (0 : Fin 1) n))
          (fun k => x4 (ix2 k (0 : Fin 1))) (fun k => x5 (ix2 k (0 : Fin 1))) (fun k => x6 (ix2 k (0 : Fin 1)))
          (fun k => x7 (ix2 k (0 : Fin 1))) (fun k => x8 (ix2 k (0 : Fin 1)))
          (x9 (ix2 (0 : Fin 1) (0 : Fin 1))) (fun k => x10 (ix2 k (0 : Fin 1))) (x11 (ix2 (0 : Fin 1) (0 : Fin 1))) := by
  unfold out0_12
  rw [View.canon_unit_zero offsets_zero]
  simp only [View.ld_unit_zero (S := S1x500000) offsets_zero, View.ld_unit_zero (S := S8x1) offsets_zero,
    View.ld_unit_zero (S := S1x1) offsets_zero]
  unfold k0_pay2 k0_pay3 k0_pay4 k0_pay5 k0_pay6
  simp only [shapeCast_self]
  rw [pay1_apply]
  simp only [pay7_apply]
  rfl

end Cert.KernelIdeal.Dense

end
-- ==== Proof.RefDense.lean ====
/- The reference's dense layer read at one node: every array operation acts row by row, so at node n the layer is Spec.node of that node's four scalars and the parameters. -/
import proofs.«409853_j63763084476519_2_alg».proof.Proof.RefFns
import proofs.«409853_j63763084476519_2_alg».proof.Proof.Spec
import Idealize.ShloMosaic.Lib.ValueIdx
import Idealize.ShloMosaic.Lib.Pipeline.Value
import Idealize.ShloMosaic.Lib.KernelVsHost
import Idealize.ShloMosaic.Lib.StackMember
import Idealize.ShloMosaic.Lib.IdealHost
import Idealize.ShloMosaic.PureOps.Ideal.Laws
import Mathlib.Algebra.BigOperators.Fin
import Mathlib.Data.EReal.Basic

noncomputable section

open scoped BigOperators

namespace Cert.ReferenceIdeal.Dense

open Cert.ReferenceIdeal Cert.ReferenceIdeal.Gen Idealize.ShloMosaic Idealize.ShloMosaic.ValueIdx

theorem liftDims_eq : dot_S500000x1_S1x8_S500000x8_1_0_0_1_n_n = DotDims.plain 500000 1 8 := rfl

theorem projDims_eq : dot_S500000x8_S8x1_S500000x1_1_0_0_1_n_n = DotDims.plain 500000 8 1 := rfl

theorem lift_apply (A : FVec Ideal S500000x1 .f32) (B : FVec Ideal S1x8 .f32) (n : Fin 500000) (k : Fin 8) :
    Host.dotGeneral dot_S500000x1_S1x8_S500000x8_1_0_0_1_n_n none A B (ix2 n k)
      = A (ix2 n (0 : Fin 1)) * B (ix2 (0 : Fin 1) k) := by
  rw [liftDims_eq, StackMember.dotGeneral_plain_apply, Fin.sum_univ_one]

theorem proj_apply (A : FVec Ideal S500000x8 .f32) (B : FVec Ideal S8x1 .f32) (n : Fin 500000) :
    Host.dotGeneral dot_S500000x8_S8x1_S500000x1_1_0_0_1_n_n none A B (ix2 n (0 : Fin 1))
      = ∑ k : Fin 8, A (ix2 n k) * B (ix2 k (0 : Fin 1)) := by
  rw [projDims_eq, StackMember.dotGeneral_plain_apply]

section Broadcasts
variable {α : Type}

theorem asRow_apply (x : S8.Idx → α) (k : Fin 8) :
    broadcastInDim S1x8 ![1] bcast_S8_S1x8_1 x (ix2 (0 : Fin 1) k) = x (ix1 k) := by
  refine broadcastInDim_apply _ _ x _ (ix1 k) fun c => ?_
  match c with
  | ⟨0, _⟩ =>
    show k.val = if (8 : ℕ) = 1 then 0 else k.val
    rw [if_neg (by decide)]

theorem everyNode_apply (x : S1x8.Idx → α) (n : Fin 500000) (k : Fin 8) :
    broadcastInDim S500000x8 ![0, 1] bcast_S1x8_S500000x8_0_1 x (ix2 n k) = x (ix2 (0 : Fin 1) k) :=
  broadcastInDim_oneRow_apply bcast_S1x8_S500000x8_0_1 x n k

theorem everyChannel_apply (x : S500000x1.Idx → α) (n : Fin 500000) (k : Fin 8) :
    broadcastInDim S500000x8 ![0, 1] bcast_S500000x1_S500000x8_0_1 x (ix2 n k) = x (ix2 n (0 : Fin 1)) := by
  refine broadcastInDim_apply _ _ x _ (ix2 n (0 : Fin 1)) fun c => ?_
  match c with
  | ⟨0, _⟩ =>
    show n.val = if (500000 : ℕ) = 1 then 0 else n.val
    rw [if_neg (by decide)]
  | ⟨1, _⟩ =>
    show (0 : ℕ) = if (1 : ℕ) = 1 then 0 else k.val
    rw [if_pos rfl]

theorem asColumn_apply (x : S500000.Idx → α) (n : Fin 500000) :
    broadcastInDim S500000x1 ![0] bcast_S500000_S500000x1_0 x (ix2 n (0 : Fin 1)) = x (ix1 n) := by
  refine broadcastInDim_apply _ _ x _ (ix1 n) fun c => ?_
  match c with
  | ⟨0, _⟩ =>
    show n.val = if (500000 : ℕ) = 1 then 0 else n.val
    rw [if_neg (by decide)]

theorem asCell_apply (x : S1.Idx → α) :
    broadcastInDim S1x1 ![1] bcast_S1_S1x1_1 x (ix2 (0 : Fin 1) (0 : Fin 1)) = x (ix1 (0 : Fin 1)) := by
  refine broadcastInDim_apply _ _ x _ (ix1 (0 : Fin 1)) fun c => ?_
  match c with
  | ⟨0, _⟩ =>
    show (0 : ℕ) = if (1 : ℕ) = 1 then 0 else 0
    rw [if_pos rfl]

theorem cellEveryNode_apply (x : S1x1.Idx → α) (n : Fin 500000) :
    broadcastInDim S500000x1 ![0, 1] bcast_S1x1_S500000x1_0_1 x (ix2 n (0 : Fin 1))
      = x (ix2 (0 : Fin 1) (0 : Fin 1)) :=
  broadcastInDim_oneRow_apply bcast_S1x1_S500000x1_0_1 x n 0

end Broadcasts

theorem rowSum_apply (X : FVec Ideal S500000x8 .f32) (init : FVec Ideal S_ .f32) (n : Fin 500000) :
    Host.reduceAdd X init reducesTo_S500000x8_S500000_d1 h_S_ (ix1 n) = init ix0 + ∑ k : Fin 8, X (ix2 n k) := by
  have h : S500000x8.Reduces [1] S500000 := by decide
  rw [hostReduceAdd_apply, Ideal.hostReduceAdd_single reducesTo_S500000x8_S500000_d1 h, eq_ix0 (Shape.Idx.first h_S_)]
  refine congrArg (init ix0 + ·) (Finset.sum_congr rfl fun k _ => congrArg X ?_)
  funext c
  apply Fin.ext
  match c with
  | ⟨0, _⟩ => rfl
  | ⟨1, _⟩ => rfl

theorem eight_eq : Ideal.ofBits .f32 0x41000000#32 = ((8 : ℝ) : EReal) := by
  have hs : ((0x41000000#32 : BitVec 32).extractLsb' (8 + 23) 1 == 1#1) = false := by decide
  have he : ((0x41000000#32 : BitVec 32).extractLsb' 23 8).toNat = 130 := by decide
  have hf : ((0x41000000#32 : BitVec 32).extractLsb' 0 23).toNat = 0 := by decide
  unfold Ideal.ofBits Ideal.ieee
  simp only [hs, he, hf]
  norm_num

theorem divisor_apply :
    subf (constant (F := Ideal) S_ .f32 0x41000000#32) (sitofp .f32 (constantI S_ 32 0#32)) ix0
      = Ideal.ofBits .f32 0x41000000#32 := by
  rw [subf_apply, constant_apply, sitofp_apply]
  show Ideal.ofBits .f32 0x41000000#32 - (((constantI S_ 32 0#32 ix0).toInt : ℝ) : EReal) = _
  rw [show (constantI S_ 32 0#32 ix0).toInt = 0 from rfl, Int.cast_zero, EReal.coe_zero, sub_zero]

theorem divisor_pos :
    FloatOps.cmpf (F := Ideal) (φ := .f32) .ogt (Ideal.ofBits .f32 0x41000000#32) (Ideal.ofBits .f32 0x00000000#32)
      = 1#1 := by
  have h : (0 : EReal) < Ideal.ofBits .f32 0x41000000#32 := by
    rw [eight_eq]; exact_mod_cast (by norm_num : (0 : ℝ) < 8)
  rw [Ideal.cmpf_def, Ideal.ofBits_zero_f32]
  show BitVec.ofBool (decide ((0 : EReal) < Ideal.ofBits .f32 0x41000000#32)) = 1#1
  rw [decide_eq_true h]
  rfl

theorem pre_apply (agg y dd : FVec Ideal S500000x1 .f32) (W1 : FVec Ideal S1x8 .f32) (b1 : FVec Ideal S8 .f32)
    (Wres : FVec Ideal S1x8 .f32) (n : Fin 500000) (k : Fin 8) :
    addf
        (mulf
          (addf (Host.dotGeneral dot_S500000x1_S1x8_S500000x8_1_0_0_1_n_n none agg W1)
            (broadcastInDim S500000x8 (![0, 1] : Fin 2 → Fin 2) bcast_S1x8_S500000x8_0_1
              (broadcastInDim S1x8 (![1] : Fin 1 → Fin 2) bcast_S8_S1x8_1 b1)))
          (broadcastInDim S500000x8 (![0, 1] : Fin 2 → Fin 2) bcast_S500000x1_S500000x8_0_1 dd))
        (Host.dotGeneral dot_S500000x1_S1x8_S500000x8_1_0_0_1_n_n none y Wres) (ix2 n k)
      = Cert.Spec.pre (agg (ix2 n (0 : Fin 1))) (y (ix2 n (0 : Fin 1))) (dd (ix2 n (0 : Fin 1)))
          (fun k => W1 (ix2 (0 : Fin 1) k)) (fun k => b1 (ix1 k)) (fun k => Wres (ix2 (0 : Fin 1) k)) k := by
  rw [addf_apply, mulf_apply, addf_apply, lift_apply, lift_apply, everyNode_apply, asRow_apply, everyChannel_apply,
    mul_comm (agg _), mul_comm (y _)]
  rfl

theorem mean_apply (X : FVec Ideal S500000x8 .f32) (n : Fin 500000) :
    Host.divf
        (broadcastInDim S500000x1 (![0] : Fin 1 → Fin 2) bcast_S500000_S500000x1_0
          (Host.reduceAdd X (constant (F := Ideal) S_ .f32 0x00000000#32) reducesTo_S500000x8_S500000_d1 h_S_))
        (broadcastInDim S500000x1 (![] : Fin 0 → Fin 2) bcast_S_S500000x1
          (constant (F := Ideal) S_ .f32 0x41000000#32))
        (ix2 n (0 : Fin 1))
      = Cert.Spec.mean8 fun k => X (ix2 n k) := by
  rw [hostDivf_apply, asColumn_apply, rowSum_apply, broadcastInDim_scalar_apply, constant_apply, constant_apply,
    Ideal.ofBits_zero_f32, zero_add]
  rfl

theorem centre_apply (X : FVec Ideal S500000x8 .f32) (M : FVec Ideal S500000x1 .f32) (n : Fin 500000) (k : Fin 8) :
    subf X (broadcastInDim S500000x8 (![0, 1] : Fin 2 → Fin 2) bcast_S500000x1_S500000x8_0_1 M) (ix2 n k)
      = X (ix2 n k) - M (ix2 n (0 : Fin 1)) := by
  rw [subf_apply, everyChannel_apply]

theorem variance_apply (C : FVec Ideal S500000x8 .f32) (n : Fin 500000) :
    select
        (broadcastInDim S500000x1 (![] : Fin 0 → Fin 2) bcast_S_S500000x1
          (cmpf .ogt (subf (constant (F := Ideal) S_ .f32 0x41000000#32) (sitofp .f32 (constantI S_ 32 0#32)))
            (constant (F := Ideal) S_ .f32 0x00000000#32)))
        (Host.divf
          (broadcastInDim S500000x1 (![0] : Fin 1 → Fin 2) bcast_S500000_S500000x1_0
            (Host.reduceAdd (mulf C C) (constant (F := Ideal) S_ .f32 0x00000000#32) reducesTo_S500000x8_S500000_d1
              h_S_))
          (broadcastInDim S500000x1 (![] : Fin 0 → Fin 2) bcast_S_S500000x1
            (subf (constant (F := Ideal) S_ .f32 0x41000000#32) (sitofp .f32 (constantI S_ 32 0#32)))))
        (broadcastInDim S500000x1 (![] : Fin 0 → Fin 2) bcast_S_S500000x1
          (constant (F := Ideal) S_ .f32 0x7FC00000#32))
        (ix2 n (0 : Fin 1))
      = Cert.Spec.mean8 fun j => C (ix2 n j) * C (ix2 n j) := by
  rw [select_apply, broadcastInDim_scalar_apply, cmpf_apply, divisor_apply, constant_apply, divisor_pos, select_one,
    hostDivf_apply, asColumn_apply, rowSum_apply, broadcastInDim_scalar_apply, divisor_apply, constant_apply,
    Ideal.ofBits_zero_f32, zero_add]
  rfl

theorem rstd_apply (V : FVec Ideal S500000x1 .f32) (n : Fin 500000) :
    Host.rsqrt
        (addf V
          (broadcastInDim S500000x1 (![] : Fin 0 → Fin 2) bcast_S_S500000x1
            (constant (F := Ideal) S_ .f32 0x3727C5AC#32)))
        (ix2 n (0 : Fin 1))
      = Ideal.rsqrt (V (ix2 n (0 : Fin 1)) + Cert.Spec.eps) := by
  show Ideal.rsqrt
      (addf V
        (broadcastInDim S500000x1 (![] : Fin 0 → Fin 2) bcast_S_S500000x1
          (constant (F := Ideal) S_ .f32 0x3727C5AC#32))
        (ix2 n (0 : Fin 1))) = _
  rw [addf_apply, broadcastInDim_scalar_apply, constant_apply]

theorem affine_apply (C : FVec Ideal S500000x8 .f32) (R : FVec Ideal S500000x1 .f32) (g b : FVec Ideal S8 .f32)
    (n : Fin 500000) (k : Fin 8) :
    addf
        (mulf (mulf C (broadcastInDim S500000x8 (![0, 1] : Fin 2 → Fin 2) bcast_S500000x1_S500000x8_0_1 R))
          (broadcastInDim S500000x8 (![0, 1] : Fin 2 → Fin 2) bcast_S1x8_S500000x8_0_1
            (broadcastInDim S1x8 (![1] : Fin 1 → Fin 2) bcast_S8_S1x8_1 g)))
        (broadcastInDim S500000x8 (![0, 1] : Fin 2 → Fin 2) bcast_S1x8_S500000x8_0_1
          (broadcastInDim S1x8 (![1] : Fin 1 → Fin 2) bcast_S8_S1x8_1 b))
        (ix2 n k)
      = C (ix2 n k) * R (ix2 n (0 : Fin 1)) * g (ix1 k) + b (ix1 k) := by
  rw [addf_apply, mulf_apply, mulf_apply, everyChannel_apply, everyNode_apply, asRow_apply, everyNode_apply, asRow_apply]

theorem rectifier_apply (Z : FVec Ideal S500000x8 .f32) (a : FVec Ideal S_ .f32) (n : Fin 500000) (k : Fin 8) :
    select
        (cmpf .oge Z
          (broadcastInDim S500000x8 (![] : Fin 0 → Fin 2) bcast_S_S500000x8
            (constant (F := Ideal) S_ .f32 0x00000000#32)))
        Z
        (mulf (broadcastInDim S500000x8 (![] : Fin 0 → Fin 2) bcast_S_S500000x8 a) Z) (ix2 n k)
      = Cert.Spec.prelu (a ix0) (Z (ix2 n k)) := by
  rw [select_apply, cmpf_apply, mulf_apply, broadcastInDim_scalar_apply, broadcastInDim_scalar_apply, constant_apply]
  rfl

theorem scale_apply (Q : FVec Ideal S500000x8 .f32) (ds : FVec Ideal S500000x1 .f32) (n : Fin 500000) (k : Fin 8) :
    mulf Q (broadcastInDim S500000x8 (![0, 1] : Fin 2 → Fin 2) bcast_S500000x1_S500000x8_0_1 ds) (ix2 n k)
      = Q (ix2 n k) * ds (ix2 n (0 : Fin 1)) := by
  rw [mulf_apply, everyChannel_apply]

theorem out_apply (P : FVec Ideal S500000x8 .f32) (W2 : FVec Ideal S8x1 .f32) (b2 : FVec Ideal S1 .f32)
    (n : Fin 500000) :
    addf (Host.dotGeneral dot_S500000x8_S8x1_S500000x1_1_0_0_1_n_n none P W2)
        (broadcastInDim S500000x1 (![0, 1] : Fin 2 → Fin 2) bcast_S1x1_S500000x1_0_1
          (broadcastInDim S1x1 (![1] : Fin 1 → Fin 2) bcast_S1_S1x1_1 b2))
        (ix2 n (0 : Fin 1))
      = (∑ k : Fin 8, P (ix2 n k) * W2 (ix2 k (0 : Fin 1))) + b2 (ix1 (0 : Fin 1)) := by
  rw [addf_apply, proj_apply, cellEveryNode_apply, asCell_apply]

theorem dense_apply (agg y ds dd : (⟨S500000x1, .f32⟩ : BufTy).Contents (Elt Ideal))
    (W1 : (⟨S1x8, .f32⟩ : BufTy).Contents (Elt Ideal)) (b1 : (⟨S8, .f32⟩ : BufTy).Contents (Elt Ideal))
    (Wres : (⟨S1x8, .f32⟩ : BufTy).Contents (Elt Ideal)) (g b : (⟨S8, .f32⟩ : BufTy).Contents (Elt Ideal))
    (a : (⟨S_, .f32⟩ : BufTy).Contents (Elt Ideal)) (W2 : (⟨S8x1, .f32⟩ : BufTy).Contents (Elt Ideal))
    (b2 : (⟨S1, .f32⟩ : BufTy).Contents (Elt Ideal)) (n : Fin 500000) :
    Cert.ReferenceIdeal.Fn.dense (F := Ideal) agg y ds dd W1 b1 Wres g b a W2 b2 (ix2 n (0 : Fin 1))
      = Cert.Spec.node (agg (ix2 n (0 : Fin 1))) (y (ix2 n (0 : Fin 1))) (ds (ix2 n (0 : Fin 1))) (dd (ix2 n (0 : Fin 1)))
          (fun k => W1 (ix2 (0 : Fin 1) k)) (fun k => b1 (ix1 k)) (fun k => Wres (ix2 (0 : Fin 1) k)) (fun k => g (ix1 k))
          (fun k => b (ix1 k)) (a ix0) (fun k => W2 (ix2 k (0 : Fin 1))) (b2 (ix1 (0 : Fin 1))) := by
  unfold Cert.ReferenceIdeal.Fn.dense Cert.ReferenceIdeal.Fn.proj Cert.ReferenceIdeal.Fn.normAct Cert.ReferenceIdeal.Fn.preNorm

  simp only [id, out_apply, scale_apply, rectifier_apply, affine_apply, centre_apply, rstd_apply, variance_apply,
    mean_apply, pre_apply]

  rfl

end Cert.ReferenceIdeal.Dense

end
-- ==== Proof.LibGather.lean ====
/- Two gathers read at an index: result element e is the operand at the row number idx[e, 0], read signed and clamped into [0, N - 1]. -/
import Idealize.ShloMosaic.PureOps.Ideal
import Idealize.ShloMosaic.PureOps.Contract
import Idealize.ShloMosaic.Lib.ValueIdx

noncomputable section

namespace Cert.LibGather

open Idealize.ShloMosaic Idealize.ShloMosaic.ValueIdx

section Vec
variable {α : Type}

abbrev vecGatherDims (N E : Nat)
    (wf : GatherDims.WF (⟨1, ![N]⟩ : Shape) (⟨2, ![E, 1]⟩ : Shape) (⟨1, ![E]⟩ : Shape) [] [0] [] [0] [] 1 ![1]) :
    GatherDims (⟨1, ![N]⟩ : Shape) (⟨2, ![E, 1]⟩ : Shape) (⟨1, ![E]⟩ : Shape) where
  offsetDims := []
  collapsedSliceDims := [0]
  operandBatchingDims := []
  startIndicesBatchingDims := []
  startIndexMap := [0]
  indexVectorDim := 1
  sliceSizes := ![1]
  wf := wf

private theorem vec_siIdx {N E : Nat}
    (wf : GatherDims.WF (⟨1, ![N]⟩ : Shape) (⟨2, ![E, 1]⟩ : Shape) (⟨1, ![E]⟩ : Shape) [] [0] [] [0] [] 1 ![1])
    (e : Fin E) (c : Fin (vecGatherDims N E wf).startIndexMap.length) :
    (vecGatherDims N E wf).siIdx (ix1 e) c = ix2 e (0 : Fin 1) := by
  have hc : c.val = 0 := Nat.lt_one_iff.mp c.isLt
  funext b; refine Fin.ext ?_
  match b with
  | ⟨0, _⟩ => rfl
  | ⟨1, _⟩ => exact hc

private theorem vec_start {N E w : Nat}
    (wf : GatherDims.WF (⟨1, ![N]⟩ : Shape) (⟨2, ![E, 1]⟩ : Shape) (⟨1, ![E]⟩ : Shape) [] [0] [] [0] [] 1 ![1])
    (idx : IVec (⟨2, ![E, 1]⟩ : Shape) w) (e : Fin E) :
    (vecGatherDims N E wf).start (ix1 e) idx 0 = min (idx (ix2 e (0 : Fin 1))).toInt.toNat (N - 1) := by
  unfold GatherDims.start
  rw [dif_pos (show (0 : Fin 1) ∈ (vecGatherDims N E wf).startIndexMap from List.mem_singleton.mpr rfl), vec_siIdx]
  rfl

theorem vecGather_apply {N E w : Nat} (hN : 0 < N)
    (wf : GatherDims.WF (⟨1, ![N]⟩ : Shape) (⟨2, ![E, 1]⟩ : Shape) (⟨1, ![E]⟩ : Shape) [] [0] [] [0] [] 1 ![1])
    (x : (⟨1, ![N]⟩ : Shape).Idx → α) (idx : IVec (⟨2, ![E, 1]⟩ : Shape) w) (e : Fin E) :
    Host.gather (vecGatherDims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl)),
    vec_start]
  rfl

end Vec

section Row
variable {α : Type}

abbrev rowGatherDims (N D E : Nat)
    (wf : GatherDims.WF (⟨2, ![N, D]⟩ : Shape) (⟨2, ![E, 1]⟩ : Shape) (⟨2, ![E, D]⟩ : Shape) [1] [0] [] [0] [] 1 ![1, D]) :
    GatherDims (⟨2, ![N, D]⟩ : Shape) (⟨2, ![E, 1]⟩ : Shape) (⟨2, ![E, D]⟩ : Shape) where
  offsetDims := [1]
  collapsedSliceDims := [0]
  operandBatchingDims := []
  startIndicesBatchingDims := []
  startIndexMap := [0]
  indexVectorDim := 1
  sliceSizes := ![1, D]
  wf := wf

private theorem row_siIdx {N D E : Nat}
    (wf : GatherDims.WF (⟨2, ![N, D]⟩ : Shape) (⟨2, ![E, 1]⟩ : Shape) (⟨2, ![E, D]⟩ : Shape) [1] [0] [] [0] [] 1 ![1, D])
    (e : Fin E) (k : Fin D) (c : Fin (rowGatherDims N D E wf).startIndexMap.length) :
    (rowGatherDims N D E wf).siIdx (ix2 e k) c = ix2 e (0 : Fin 1) := by
  have hc : c.val = 0 := Nat.lt_one_iff.mp c.isLt
  funext b; refine Fin.ext ?_
  match b with
  | ⟨0, _⟩ => rfl
  | ⟨1, _⟩ => exact hc

private theorem row_start_zero {N D E w : Nat}
    (wf : GatherDims.WF (⟨2, ![N, D]⟩ : Shape) (⟨2, ![E, 1]⟩ : Shape) (⟨2, ![E, D]⟩ : Shape) [1] [0] [] [0] [] 1 ![1, D])
    (idx : IVec (⟨2, ![E, 1]⟩ : Shape) w) (e : Fin E) (k : Fin D) :
    (rowGatherDims N D E wf).start (ix2 e k) idx 0 = min (idx (ix2 e (0 : Fin 1))).toInt.toNat (N - 1) := by
  unfold GatherDims.start
  rw [dif_pos (show (0 : Fin 2) ∈ (rowGatherDims N D E wf).startIndexMap from List.mem_singleton.mpr rfl), row_siIdx]
  rfl

private theorem row_start_one {N D E w : Nat}
    (wf : GatherDims.WF (⟨2, ![N, D]⟩ : Shape) (⟨2, ![E, 1]⟩ : Shape) (⟨2, ![E, D]⟩ : Shape) [1] [0] [] [0] [] 1 ![1, D])
    (idx : IVec (⟨2, ![E, 1]⟩ : Shape) w) (j : (⟨2, ![E, D]⟩ : Shape).Idx) :
    (rowGatherDims N D E wf).start j idx 1 = 0 := by
  unfold GatherDims.start
  rw [dif_neg (show ¬ (1 : Fin 2) ∈ (rowGatherDims N D E wf).startIndexMap from
    (by decide : ¬ (1 : Fin 2) ∈ ([0] : List (Fin 2))))]

private theorem row_off_one {N D E : Nat}
    (wf : GatherDims.WF (⟨2, ![N, D]⟩ : Shape) (⟨2, ![E, 1]⟩ : Shape) (⟨2, ![E, D]⟩ : Shape) [1] [0] [] [0] [] 1 ![1, D])
    (e : Fin E) (k : Fin D) :
    (rowGatherDims N D E wf).offCoord (ix2 e k) 1 = k.val := by
  unfold GatherDims.offCoord
  rw [dif_pos ((GatherDims.mem_sKept _ _).mpr
    ⟨(by decide : ¬ (1 : Fin 2) ∈ ([0] : List (Fin 2))), List.not_mem_nil⟩)]
  rfl

theorem rowGather_apply {N D E w : Nat} (hN : 0 < N)
    (wf : GatherDims.WF (⟨2, ![N, D]⟩ : Shape) (⟨2, ![E, 1]⟩ : Shape) (⟨2, ![E, D]⟩ : Shape) [1] [0] [] [0] [] 1 ![1, D])
    (x : (⟨2, ![N, D]⟩ : Shape).Idx → α) (idx : IVec (⟨2, ![E, 1]⟩ : Shape) w) (e : Fin E) (k : Fin D) :
    Host.gather (rowGatherDims N D E wf) x idx (ix2 e k)
      = x (ix2 ⟨min (idx (ix2 e (0 : Fin 1))).toInt.toNat (N - 1), by omega⟩ k) := by
  unfold Host.gather
  congr 1
  funext a
  refine Fin.ext ?_
  revert a
  refine Fin.forall_fin_two.2 ⟨?_, ?_⟩
  · show (rowGatherDims N D E wf).start (ix2 e k) idx 0 + (rowGatherDims N D E wf).batchCoord (ix2 e k) 0
        + (rowGatherDims N D E wf).offCoord (ix2 e k) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl)),
      row_start_zero]
    rfl
  · show (rowGatherDims N D E wf).start (ix2 e k) idx 1 + (rowGatherDims N D E wf).batchCoord (ix2 e k) 1
        + (rowGatherDims N D E wf).offCoord (ix2 e k) 1 = k.val
    rw [GatherDims.batchCoord_eq_zero _ _ _ List.not_mem_nil, row_start_one, row_off_one]
    omega

end Row

end Cert.LibGather

end
-- ==== Proof.LibScatterVec.lean ====
/- A vector scatter-add read at an index: position r holds the operand's entry plus the sum of the updates whose index word reads r. -/
import Idealize.ShloMosaic.PureOps.Ideal
import Idealize.ShloMosaic.PureOps.Contract
import Idealize.ShloMosaic.Lib.ValueIdx
import Idealize.ShloMosaic.Lib.ValueIdxRank1

noncomputable section

open scoped BigOperators

namespace Cert.LibScatterVec

open Idealize.ShloMosaic Idealize.ShloMosaic.ValueIdx

abbrev vecScatterDims (M E : Nat)
    (wf : ScatterDims.WF (⟨1, ![M]⟩ : Shape) (⟨2, ![E, 1]⟩ : Shape) (⟨1, ![E]⟩ : Shape) [] [0] [0] 1) :
    ScatterDims (⟨1, ![M]⟩ : Shape) (⟨2, ![E, 1]⟩ : Shape) (⟨1, ![E]⟩ : Shape) where
  updateWindowDims := []
  insertedWindowDims := [0]
  scatterDimsToOperandDims := [0]
  indexVectorDim := 1
  wf := wf

private theorem siIdx_eq {M E : Nat}
    (wf : ScatterDims.WF (⟨1, ![M]⟩ : Shape) (⟨2, ![E, 1]⟩ : Shape) (⟨1, ![E]⟩ : Shape) [] [0] [0] 1)
    (e : Fin E) (c : Fin (vecScatterDims M E wf).scatterDimsToOperandDims.length) :
    (vecScatterDims M E wf).siIdx (ix1 e) c = ix2 e (0 : Fin 1) := by
  have hc : c.val = 0 := by have := c.isLt; simpa using this
  funext b
  refine Fin.ext ?_
  match b with
  | ⟨0, _⟩ => rfl
  | ⟨1, _⟩ => exact hc

private theorem start_eq {M E w : Nat}
    (wf : ScatterDims.WF (⟨1, ![M]⟩ : Shape) (⟨2, ![E, 1]⟩ : Shape) (⟨1, ![E]⟩ : Shape) [] [0] [0] 1)
    (idx : IVec (⟨2, ![E, 1]⟩ : Shape) w) (e : Fin E) :
    (vecScatterDims M E wf).start (ix1 e) idx 0 = (idx (ix2 e (0 : Fin 1))).toInt := by
  unfold ScatterDims.start
  rw [dif_pos (show (0 : Fin 1) ∈ (vecScatterDims M E wf).scatterDimsToOperandDims from List.mem_singleton.mpr rfl),
    siIdx_eq]

private theorem window_eq {M E : Nat}
    (wf : ScatterDims.WF (⟨1, ![M]⟩ : Shape) (⟨2, ![E, 1]⟩ : Shape) (⟨1, ![E]⟩ : Shape) [] [0] [0] 1)
    (j : (⟨1, ![E]⟩ : Shape).Idx) :
    (vecScatterDims M E wf).window j 0 = 0 := by
  unfold ScatterDims.window
  rw [dif_neg (show ¬ (0 : Fin 1) ∈ (vecScatterDims M E wf).sKept from
    (by decide : ¬ (0 : Fin 1) ∈ (List.finRange 1).filter (· ∉ [(0 : Fin 1)])))]

theorem resultIdx?_eq_some_iff {M E w : Nat}
    (wf : ScatterDims.WF (⟨1, ![M]⟩ : Shape) (⟨2, ![E, 1]⟩ : Shape) (⟨1, ![E]⟩ : Shape) [] [0] [0] 1)
    (idx : IVec (⟨2, ![E, 1]⟩ : Shape) w) (e : Fin E) (r : Fin M) :
    (vecScatterDims M E wf).resultIdx? (ix1 e) idx = some (ix1 r)
      ↔ (idx (ix2 e (0 : Fin 1))).toInt = (r.val : ℤ) := by
  have hs := start_eq wf idx e
  have hw := window_eq wf (ix1 e)
  have hr := r.isLt
  constructor
  · intro hres
    unfold ScatterDims.resultIdx? at hres
    split_ifs at hres with h
    rw [Option.some.injEq] at hres
    have e0 : ((vecScatterDims M E wf).start (ix1 e) idx 0 + (vecScatterDims M E wf).window (ix1 e) 0).toNat = r.val :=
      congrArg Fin.val (congrFun hres 0)
    have h0 := (h 0).1
    rw [hs, hw] at e0 h0
    omega
  · intro hidx
    unfold ScatterDims.resultIdx?
    have h : ∀ a, 0 ≤ (vecScatterDims M E wf).start (ix1 e) idx a + (vecScatterDims M E wf).window (ix1 e) a
        ∧ (vecScatterDims M E wf).start (ix1 e) idx a + (vecScatterDims M E wf).window (ix1 e) a
          < (⟨1, ![M]⟩ : Shape).size a := by
      refine Fin.forall_fin_one.2 ?_
      rw [hs, hw]
      show 0 ≤ _ ∧ _ < (M : ℤ)
      omega
    rw [dif_pos h, Option.some.injEq]
    funext a
    refine Fin.ext ?_
    revert a
    refine Fin.forall_fin_one.2 ?_
    show ((vecScatterDims M E wf).start (ix1 e) idx 0 + (vecScatterDims M E wf).window (ix1 e) 0).toNat = r.val
    rw [hs, hw]; omega

theorem vecScatterAdd_apply {M E w : Nat}
    (wf : ScatterDims.WF (⟨1, ![M]⟩ : Shape) (⟨2, ![E, 1]⟩ : Shape) (⟨1, ![E]⟩ : Shape) [] [0] [0] 1)
    (x : (⟨1, ![M]⟩ : Shape).Idx → EReal) (idx : IVec (⟨2, ![E, 1]⟩ : Shape) w)
    (u : (⟨1, ![E]⟩ : Shape).Idx → EReal) (r : Fin M) :
    Ideal.hostScatterAdd (vecScatterDims M E wf) x idx u (ix1 r)
      = x (ix1 r) + ∑ e : Fin E, if (idx (ix2 e (0 : Fin 1))).toInt = (r.val : ℤ) then u (ix1 e) else 0 := by
  unfold Ideal.hostScatterAdd
  congr 1
  rw [Finset.sum_filter]
  refine Fintype.sum_equiv idxEquiv1 _ _ fun j => ?_
  obtain ⟨e, rfl⟩ : ∃ e, j = ix1 e := ⟨j 0, eq_ix1 j⟩
  exact if_congr (resultIdx?_eq_some_iff wf idx e r) rfl rfl

end Cert.LibScatterVec

end
-- ==== Proof.LibSegmentSum.lean ====
/- A row scatter-add read at an index: entry (r, k) holds the operand's plus the sum, over the update rows whose index word reads r, of their entry k. -/
import Idealize.ShloMosaic.PureOps.Ideal
import Idealize.ShloMosaic.PureOps.Contract
import Idealize.ShloMosaic.Lib.ValueIdx

noncomputable section

open scoped BigOperators

namespace Cert.LibSegmentSum

open Idealize.ShloMosaic Idealize.ShloMosaic.ValueIdx

abbrev rowScatterDims (M D E : Nat)
    (wf : ScatterDims.WF (⟨2, ![M, D]⟩ : Shape) (⟨2, ![E, 1]⟩ : Shape) (⟨2, ![E, D]⟩ : Shape) [1] [0] [0] 1) :
    ScatterDims (⟨2, ![M, D]⟩ : Shape) (⟨2, ![E, 1]⟩ : Shape) (⟨2, ![E, D]⟩ : Shape) where
  updateWindowDims := [1]
  insertedWindowDims := [0]
  scatterDimsToOperandDims := [0]
  indexVectorDim := 1
  wf := wf

private theorem start_zero {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (e : Fin E) (k' : Fin D) :
    (rowScatterDims M D E wf).start (ix2 e k') idx 0 = (idx (ix2 e (0 : Fin 1))).toInt := by
  unfold ScatterDims.start
  rw [dif_pos (show (0 : Fin 2) ∈ (rowScatterDims M D E wf).scatterDimsToOperandDims from List.mem_singleton.mpr rfl)]
  have hsi : (rowScatterDims M D E wf).siIdx (ix2 e k') ⟨List.idxOf (0 : Fin 2) (rowScatterDims M D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

private theorem start_one {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (j : (⟨2, ![E, D]⟩ : Shape).Idx) :
    (rowScatterDims M D E wf).start j idx 1 = 0 := by
  unfold ScatterDims.start
  rw [dif_neg (show ¬ (1 : Fin 2) ∈ (rowScatterDims M D E wf).scatterDimsToOperandDims from (by decide : ¬ (1 : Fin 2) ∈ ([0] : List (Fin 2))))]

private theorem window_zero {M D E : Nat}
    (wf : ScatterDims.WF (⟨2, ![M, D]⟩ : Shape) (⟨2, ![E, 1]⟩ : Shape) (⟨2, ![E, D]⟩ : Shape) [1] [0] [0] 1)
    (j : (⟨2, ![E, D]⟩ : Shape).Idx) :
    (rowScatterDims M D E wf).window j 0 = 0 := by
  unfold ScatterDims.window
  rw [dif_neg (show ¬ (0 : Fin 2) ∈ (rowScatterDims M D E wf).sKept from (by decide : ¬ (0 : Fin 2) ∈ (List.finRange 2).filter (· ∉ [(0 : Fin 2)])))]

private theorem window_one {M D E : Nat}
    (wf : ScatterDims.WF (⟨2, ![M, D]⟩ : Shape) (⟨2, ![E, 1]⟩ : Shape) (⟨2, ![E, D]⟩ : Shape) [1] [0] [0] 1)
    (e : Fin E) (k' : Fin D) :
    (rowScatterDims M D E wf).window (ix2 e k') 1 = k'.val := by
  unfold ScatterDims.window
  rw [dif_pos (show (1 : Fin 2) ∈ (rowScatterDims M D E wf).sKept from (by decide : (1 : Fin 2) ∈ (List.finRange 2).filter (· ∉ [(0 : Fin 2)])))]
  rfl

theorem resultIdx?_eq_some_iff {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (e : Fin E) (k' : Fin D) (r : Fin M) (k : Fin D) :
    (rowScatterDims M D E wf).resultIdx? (ix2 e k') idx = some (ix2 r k)
      ↔ (idx (ix2 e (0 : Fin 1))).toInt = (r.val : ℤ) ∧ k' = k := by
  have hs0 := start_zero wf idx e k'
  have hs1 := start_one wf idx (ix2 e k')
  have hw0 := window_zero wf (ix2 e k')
  have hw1 := window_one wf e k'
  have hr := r.isLt
  have hk := k.isLt
  have hk' := k'.isLt
  constructor
  · intro hres
    unfold ScatterDims.resultIdx? at hres
    split_ifs at hres with h
    rw [Option.some.injEq] at hres
    have e0 : ((rowScatterDims M D E wf).start (ix2 e k') idx 0 + (rowScatterDims M D E wf).window (ix2 e k') 0).toNat = r.val :=
      congrArg Fin.val (congrFun hres 0)
    have e1 : ((rowScatterDims M D E wf).start (ix2 e k') idx 1 + (rowScatterDims M D E wf).window (ix2 e k') 1).toNat = k.val :=
      congrArg Fin.val (congrFun hres 1)
    have h0 := (h 0).1
    rw [hs0, hw0] at e0 h0
    rw [hs1, hw1] at e1
    exact ⟨by omega, Fin.ext (by omega)⟩
  · rintro ⟨hidx, rfl⟩
    unfold ScatterDims.resultIdx?
    have h : ∀ a, 0 ≤ (rowScatterDims M D E wf).start (ix2 e k') idx a + (rowScatterDims M D E wf).window (ix2 e k') a
        ∧ (rowScatterDims M D E wf).start (ix2 e k') idx a + (rowScatterDims M D E wf).window (ix2 e k') a
          < (⟨2, ![M, D]⟩ : Shape).size a := by
      refine Fin.forall_fin_two.2 ⟨?_, ?_⟩
      · rw [hs0, hw0]
        show 0 ≤ _ ∧ _ < (M : ℤ)
        omega
      · rw [hs1, hw1]
        show 0 ≤ _ ∧ _ < (D : ℤ)
        omega
    rw [dif_pos h, Option.some.injEq]
    funext a
    refine Fin.ext ?_
    revert a
    refine Fin.forall_fin_two.2 ⟨?_, ?_⟩
    · show ((rowScatterDims M D E wf).start (ix2 e k') idx 0 + (rowScatterDims M D E wf).window (ix2 e k') 0).toNat = r.val
      rw [hs0, hw0]; omega
    · show ((rowScatterDims M D E wf).start (ix2 e k') idx 1 + (rowScatterDims M D E wf).window (ix2 e k') 1).toNat = k'.val
      rw [hs1, hw1]; omega

theorem rowScatterAdd_apply {M D E w : Nat}
    (wf : ScatterDims.WF (⟨2, ![M, D]⟩ : Shape) (⟨2, ![E, 1]⟩ : Shape) (⟨2, ![E, D]⟩ : Shape) [1] [0] [0] 1)
    (x : (⟨2, ![M, D]⟩ : Shape).Idx → EReal) (idx : IVec (⟨2, ![E, 1]⟩ : Shape) w)
    (u : (⟨2, ![E, D]⟩ : Shape).Idx → EReal) (r : Fin M) (k : Fin D) :
    Ideal.hostScatterAdd (rowScatterDims M D E wf) x idx u (ix2 r k)
      = x (ix2 r k) + ∑ e : Fin E, if (idx (ix2 e (0 : Fin 1))).toInt = (r.val : ℤ) then u (ix2 e k) else 0 := by
  unfold Ideal.hostScatterAdd
  congr 1
  rw [Finset.sum_filter, sum_idx2]
  refine Finset.sum_congr rfl fun e _ => ?_
  simp only [resultIdx?_eq_some_iff]
  by_cases hi : (idx (ix2 e (0 : Fin 1))).toInt = (r.val : ℤ)
  · simp only [hi, true_and, if_true]
    rw [Finset.sum_ite_eq']
    simp
  · simp only [hi, false_and, if_false, Finset.sum_const_zero]

end Cert.LibSegmentSum

end
-- ==== Proof.BridgeRounds.lean ====
/- A half round of message passing, rows against columns: at a node both sides sum, over the edges into it, the value at the edge's clamped source row. -/
import proofs.«409853_j63763084476519_2_alg».proof.Proof.KerFns
import proofs.«409853_j63763084476519_2_alg».proof.Proof.RefFns
import proofs.«409853_j63763084476519_2_alg».proof.Proof.LibGather
import proofs.«409853_j63763084476519_2_alg».proof.Proof.LibScatterVec
import proofs.«409853_j63763084476519_2_alg».proof.Proof.LibSegmentSum
import Idealize.ShloMosaic.Lib.ValueIdx
import Idealize.ShloMosaic.Lib.ValueLayout
import Idealize.ShloMosaic.Lib.Pipeline.Value

noncomputable section

open scoped BigOperators

namespace Cert.Bridge

open Idealize.ShloMosaic Idealize.ShloMosaic.ValueIdx

theorem kScatterAdd_apply (x : (⟨1, ![500000]⟩ : Shape).Idx → EReal) (idx : IVec (⟨2, ![16000000, 1]⟩ : Shape) 32)
    (u : (⟨1, ![16000000]⟩ : Shape).Idx → EReal) (r : Fin 500000) :
    Host.scatterAdd (F := Ideal) (φ := .f32) Cert.KernelIdeal.scatter_S500000_S16000000x1_S16000000_n_0_0_1 x idx u (ix1 r)
      = x (ix1 r) + ∑ e : Fin 16000000, if (idx (ix2 e (0 : Fin 1))).toInt = (r.val : ℤ) then u (ix1 e) else 0 :=
  Cert.LibScatterVec.vecScatterAdd_apply
    Cert.KernelIdeal.Facts₀.scatter_S500000_S16000000x1_S16000000_n_0_0_1_wf x idx u r

theorem rScatterAdd_apply (x : (⟨2, ![500000, 1]⟩ : Shape).Idx → EReal) (idx : IVec (⟨2, ![16000000, 1]⟩ : Shape) 32)
    (u : (⟨2, ![16000000, 1]⟩ : Shape).Idx → EReal) (r : Fin 500000) :
    Host.scatterAdd (F := Ideal) (φ := .f32) Cert.ReferenceIdeal.scatter_S500000x1_S16000000x1_S16000000x1_1_0_0_1 x idx u
        (ix2 r (0 : Fin 1))
      = x (ix2 r (0 : Fin 1))
        + ∑ e : Fin 16000000, if (idx (ix2 e (0 : Fin 1))).toInt = (r.val : ℤ) then u (ix2 e (0 : Fin 1)) else 0 :=
  Cert.LibSegmentSum.rowScatterAdd_apply
    Cert.ReferenceIdeal.Facts₀.scatter_S500000x1_S16000000x1_S16000000x1_1_0_0_1_wf x idx u r 0

theorem kGather_apply (x : (⟨1, ![500000]⟩ : Shape).Idx → EReal) (idx : IVec (⟨2, ![16000000, 1]⟩ : Shape) 32)
    (e : Fin 16000000) :
    Host.gather Cert.KernelIdeal.gather_S500000_S16000000x1_S16000000_n_0_n_n_0_1_1 x idx (ix1 e)
      = x (ix1 ⟨min (idx (ix2 e (0 : Fin 1))).toInt.toNat (500000 - 1), by omega⟩) :=
  Cert.LibGather.vecGather_apply (by omega)
    Cert.KernelIdeal.Facts₀.gather_S500000_S16000000x1_S16000000_n_0_n_n_0_1_1_wf x idx e

theorem rGather_apply (x : (⟨2, ![500000, 1]⟩ : Shape).Idx → EReal) (idx : IVec (⟨2, ![16000000, 1]⟩ : Shape) 32)
    (e : Fin 16000000) :
    Host.gather Cert.ReferenceIdeal.gather_S500000x1_S16000000x1_S16000000x1_1_0_n_n_0_1_11 x idx (ix2 e (0 : Fin 1))
      = x (ix2 ⟨min (idx (ix2 e (0 : Fin 1))).toInt.toNat (500000 - 1), by omega⟩ (0 : Fin 1)) :=
  Cert.LibGather.rowGather_apply (by omega)
    Cert.ReferenceIdeal.Facts₀.gather_S500000x1_S16000000x1_S16000000x1_1_0_n_n_0_1_11_wf x idx e 0

theorem agg_bridge (v : (⟨Cert.KernelIdeal.S500000, .f32⟩ : BufTy).Contents (Elt Ideal))
    (v' : (⟨Cert.ReferenceIdeal.S500000x1, .f32⟩ : BufTy).Contents (Elt Ideal))
    (src dst : (⟨Cert.KernelIdeal.S16000000, .i32⟩ : BufTy).Contents (Elt Ideal))
    (hv : ∀ n : Fin 500000, v (ix1 n) = v' (ix2 n (0 : Fin 1))) (r : Fin 500000) :
    Cert.KernelIdeal.Fn.aggVec (F := Ideal) v src dst (ix1 r)
      = Cert.ReferenceIdeal.Fn.aggCol (F := Ideal) v' src dst (ix2 r (0 : Fin 1)) := by
  unfold Cert.KernelIdeal.Fn.aggVec Cert.ReferenceIdeal.Fn.aggCol
  dsimp only

  rw [kScatterAdd_apply, rScatterAdd_apply]

  refine congrArg₂ (· + ·) rfl (Finset.sum_congr rfl fun e _ => ?_)

  rw [kGather_apply, rGather_apply]
  exact if_congr Iff.rfl (hv _) rfl

local notation "KRow" => BufTy.Contents (Elt Ideal) (BufTy.mk Cert.KernelIdeal.S1x500000 EltTy.f32)
local notation "KVec" => BufTy.Contents (Elt Ideal) (BufTy.mk Cert.KernelIdeal.S500000 EltTy.f32)
local notation "RCol" => BufTy.Contents (Elt Ideal) (BufTy.mk Cert.ReferenceIdeal.S500000x1 EltTy.f32)

theorem rowVec_eq_col (a : KRow) (a' : RCol)
    (ha : ∀ n : Fin 500000, a (ix2 (0 : Fin 1) n) = a' (ix2 n (0 : Fin 1))) (n : Fin 500000) :
    (shapeCast Cert.KernelIdeal.S500000 a Cert.KernelIdeal.Gen.shapeCasts_S1x500000_S500000 : KVec) (ix1 n)
      = a' (ix2 n (0 : Fin 1)) :=
  (shapeCast_1a_a_apply a Cert.KernelIdeal.Gen.shapeCasts_S1x500000_S500000 n).trans (ha n)

theorem vecRow_apply (w : KVec) (n : Fin 500000) :
    (broadcastInDim Cert.KernelIdeal.S1x500000 ![1] Cert.KernelIdeal.Gen.bcast_S500000_S1x500000_1 w : KRow)
        (ix2 (0 : Fin 1) n)
      = w (ix1 n) :=
  broadcastInDim_apply _ _ w _ (ix1 n) fun a => match a with | ⟨0, _⟩ => rfl

theorem roundA_bridge (h ds : (⟨Cert.KernelIdeal.S1x500000, .f32⟩ : BufTy).Contents (Elt Ideal))
    (y ds' : (⟨Cert.ReferenceIdeal.S500000x1, .f32⟩ : BufTy).Contents (Elt Ideal))
    (src dst : (⟨Cert.KernelIdeal.S16000000, .i32⟩ : BufTy).Contents (Elt Ideal))
    (hy : ∀ n : Fin 500000, h (ix2 (0 : Fin 1) n) = y (ix2 n (0 : Fin 1)))
    (hds : ∀ n : Fin 500000, ds (ix2 (0 : Fin 1) n) = ds' (ix2 n (0 : Fin 1))) (n : Fin 500000) :
    Cert.KernelIdeal.Fn.roundA (F := Ideal) h ds src dst (ix2 (0 : Fin 1) n)
      = Cert.ReferenceIdeal.Fn.roundA (F := Ideal) y ds' src dst (ix2 n (0 : Fin 1)) := by
  unfold Cert.KernelIdeal.Fn.roundA Cert.ReferenceIdeal.Fn.roundA
  rw [vecRow_apply]
  refine agg_bridge _ _ src dst (fun m => rowVec_eq_col _ _ (fun k => ?_) m) n
  rw [mulf_apply, mulf_apply, hy k, hds k]

theorem roundB_bridge (x2 h dd : (⟨Cert.KernelIdeal.S1x500000, .f32⟩ : BufTy).Contents (Elt Ideal))
    (x2' y dd' : (⟨Cert.ReferenceIdeal.S500000x1, .f32⟩ : BufTy).Contents (Elt Ideal))
    (src dst : (⟨Cert.KernelIdeal.S16000000, .i32⟩ : BufTy).Contents (Elt Ideal))
    (hx : ∀ n : Fin 500000, x2 (ix2 (0 : Fin 1) n) = x2' (ix2 n (0 : Fin 1)))
    (hy : ∀ n : Fin 500000, h (ix2 (0 : Fin 1) n) = y (ix2 n (0 : Fin 1)))
    (hdd : ∀ n : Fin 500000, dd (ix2 (0 : Fin 1) n) = dd' (ix2 n (0 : Fin 1))) (n : Fin 500000) :
    Cert.KernelIdeal.Fn.roundB (F := Ideal) x2 h dd src dst (ix2 (0 : Fin 1) n)
      = Cert.ReferenceIdeal.Fn.roundB (F := Ideal) x2' y dd' src dst (ix2 n (0 : Fin 1)) := by
  unfold Cert.KernelIdeal.Fn.roundB Cert.ReferenceIdeal.Fn.roundB
  rw [addf_apply, addf_apply, mulf_apply, mulf_apply, vecRow_apply, hy n, hdd n,
    agg_bridge _ x2' src dst (rowVec_eq_col x2 x2' hx) n]

end Cert.Bridge

end
-- ==== Proof.BridgeLayout.lean ====
/- Re-laid arrays read at an index: a reshape or broadcast along a unit axis keeps the row-major position. -/
import proofs.«409853_j63763084476519_2_alg».proof.Proof.KerFns
import proofs.«409853_j63763084476519_2_alg».proof.Proof.RefFns
import Idealize.ShloMosaic.Lib.ValueIdx
import Idealize.ShloMosaic.Lib.ValueLayout
import Idealize.ShloMosaic.Lib.Pipeline.Value

noncomputable section

namespace Cert.Bridge

open Idealize.ShloMosaic Idealize.ShloMosaic.ValueIdx

section Layout
variable {α : Type}

theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

theorem shapeCast_1a_a1_apply {a : ℕ} (x : (⟨2, ![1, a]⟩ : Shape).Idx → α)
    (h : (⟨2, ![1, a]⟩ : Shape).ShapeCasts ⟨2, ![a, 1]⟩) (i : Fin a) :
    shapeCast ⟨2, ![a, 1]⟩ x h (ix2 i (0 : Fin 1)) = x (ix2 (0 : Fin 1) i) :=
  shapeCast_apply x h _ _ (by
    rw [Shape.rowMajor_val_two, Shape.rowMajor_val_two]
    show 0 * a + i.val = i.val * 1 + 0
    rw [Nat.zero_mul, Nat.zero_add, Nat.mul_one, Nat.add_zero])

theorem shapeCast_a_a1_apply {a : ℕ} (x : (⟨1, ![a]⟩ : Shape).Idx → α)
    (h : (⟨1, ![a]⟩ : Shape).ShapeCasts ⟨2, ![a, 1]⟩) (i : Fin a) :
    shapeCast ⟨2, ![a, 1]⟩ x h (ix2 i (0 : Fin 1)) = x (ix1 i) :=
  shapeCast_apply x h _ _ (by
    rw [Shape.rowMajor_val_two, Shape.rowMajor_val_one]
    show i.val = i.val * 1 + 0
    rw [Nat.mul_one, Nat.add_zero])

theorem shapeCast_scalar_cell_apply (x : (⟨0, ![]⟩ : Shape).Idx → α)
    (h : (⟨0, ![]⟩ : Shape).ShapeCasts ⟨2, ![1, 1]⟩) (j : (⟨2, ![1, 1]⟩ : Shape).Idx) :
    shapeCast ⟨2, ![1, 1]⟩ x h j = x ix0 := by
  unfold shapeCast
  exact congrArg x (eq_ix0 _)

theorem broadcastInDim_a_1a_apply {a : ℕ} (x : (⟨1, ![a]⟩ : Shape).Idx → α)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun k => match k with
    | ⟨0, _⟩ => by
      show i.val = if a = 1 then 0 else i.val
      by_cases h1 : a = 1
      · rw [if_pos h1]; have := i.isLt; omega
      · rw [if_neg h1])

theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun k => match k with
    | ⟨0, _⟩ => by
      show i.val = if a = 1 then 0 else i.val
      by_cases h1 : a = 1
      · rw [if_pos h1]; have := i.isLt; omega
      · rw [if_neg h1])

theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x _ _ (fun k => k.elim0)

end Layout

theorem colOfRow_apply (W : (⟨KernelIdeal.S1x8, .f32⟩ : BufTy).Contents (Elt Ideal)) (k : Fin 8) :
    KernelIdeal.Fn.colOfRow (F := Ideal) W (ix2 k (0 : Fin 1)) = W (ix2 (0 : Fin 1) k) := by
  unfold KernelIdeal.Fn.colOfRow
  dsimp only
  exact shapeCast_1a_a1_apply W _ k

theorem colOfVec_apply (b : (⟨KernelIdeal.S8, .f32⟩ : BufTy).Contents (Elt Ideal)) (k : Fin 8) :
    KernelIdeal.Fn.colOfVec (F := Ideal) b (ix2 k (0 : Fin 1)) = b (ix1 k) := by
  unfold KernelIdeal.Fn.colOfVec
  dsimp only
  exact shapeCast_a_a1_apply b _ k

theorem cellOfVec_apply (b : (⟨KernelIdeal.S1, .f32⟩ : BufTy).Contents (Elt Ideal)) :
    KernelIdeal.Fn.cellOfVec (F := Ideal) b (ix2 (0 : Fin 1) (0 : Fin 1)) = b (ix1 (0 : Fin 1)) := by
  unfold KernelIdeal.Fn.cellOfVec
  dsimp only
  exact shapeCast_a_1a_apply b _ (0 : Fin 1) (0 : Fin 1)

theorem cellOfScalar_apply (a : (⟨KernelIdeal.S_, .f32⟩ : BufTy).Contents (Elt Ideal)) :
    KernelIdeal.Fn.cellOfScalar (F := Ideal) a (ix2 (0 : Fin 1) (0 : Fin 1)) = a ix0 := by
  unfold KernelIdeal.Fn.cellOfScalar
  dsimp only
  exact shapeCast_scalar_cell_apply a _ _

theorem result_apply (h : (⟨KernelIdeal.S1x500000, .f32⟩ : BufTy).Contents (Elt Ideal)) (n : Fin 500000) :
    KernelIdeal.Fn.colOfRowResult (F := Ideal) h (ix2 n (0 : Fin 1)) = h (ix2 (0 : Fin 1) n) := by
  unfold KernelIdeal.Fn.colOfRowResult
  dsimp only
  exact (broadcastInDim_a_a1_apply _ _ n (0 : Fin 1)).trans (shapeCast_1a_a_apply h _ n)

theorem h0_bridge (y : (⟨KernelIdeal.S500000x1, .f32⟩ : BufTy).Contents (Elt Ideal)) (n : Fin 500000) :
    KernelIdeal.Fn.h0 (F := Ideal) y (ix2 (0 : Fin 1) n) = ReferenceIdeal.Fn.y0 (F := Ideal) y (ix2 n (0 : Fin 1)) := by
  unfold KernelIdeal.Fn.h0 ReferenceIdeal.Fn.y0
  dsimp only
  refine (broadcastInDim_a_1a_apply _ _ (0 : Fin 1) n).trans ?_
  refine (shapeCast_a1_a_apply _ _ n).trans ?_
  rfl

theorem deg_bridge (ends : (⟨KernelIdeal.S16000000, .i32⟩ : BufTy).Contents (Elt Ideal)) (n : Fin 500000) :
    KernelIdeal.Fn.degRow (F := Ideal) ends (ix2 (0 : Fin 1) n) = ReferenceIdeal.Fn.degScale (F := Ideal) ends (ix2 n (0 : Fin 1)) := by
  unfold KernelIdeal.Fn.degRow ReferenceIdeal.Fn.degScale
  dsimp only
  refine (broadcastInDim_a_1a_apply _ _ (0 : Fin 1) n).trans ?_
  refine Eq.trans ?_ (broadcastInDim_a_a1_apply _ _ n (0 : Fin 1)).symm
  rfl

end Cert.Bridge

end
-- ==== Proof.Equiv.lean ====
/- By induction on the rounds, the kernel program's state row and the reference's state column agree node by node. -/
import proofs.«409853_j63763084476519_2_alg».proof.Proof.KerRun
import proofs.«409853_j63763084476519_2_alg».proof.Proof.RefRun
import proofs.«409853_j63763084476519_2_alg».proof.Proof.KerDense
import proofs.«409853_j63763084476519_2_alg».proof.Proof.RefDense
import proofs.«409853_j63763084476519_2_alg».proof.Proof.BridgeRounds
import proofs.«409853_j63763084476519_2_alg».proof.Proof.BridgeLayout

noncomputable section

namespace Cert.Equiv

open Idealize.ShloMosaic Idealize.ShloMosaic.ValueIdx Idealize.ShloMosaic.TcCoe Idealize.SL.Sem

section Pure
variable (y : (⟨Cert.KernelIdeal.S500000x1, .f32⟩ : BufTy).Contents (Elt Ideal)) (src dst : (⟨Cert.KernelIdeal.S16000000, .i32⟩ : BufTy).Contents (Elt Ideal))
    (W1 : (⟨Cert.KernelIdeal.S1x8, .f32⟩ : BufTy).Contents (Elt Ideal)) (b1 : (⟨Cert.KernelIdeal.S8, .f32⟩ : BufTy).Contents (Elt Ideal)) (Wres : (⟨Cert.KernelIdeal.S1x8, .f32⟩ : BufTy).Contents (Elt Ideal)) (g b : (⟨Cert.KernelIdeal.S8, .f32⟩ : BufTy).Contents (Elt Ideal)) (a : (⟨Cert.KernelIdeal.S_, .f32⟩ : BufTy).Contents (Elt Ideal)) (W2 : (⟨Cert.KernelIdeal.S8x1, .f32⟩ : BufTy).Contents (Elt Ideal)) (b2 : (⟨Cert.KernelIdeal.S1, .f32⟩ : BufTy).Contents (Elt Ideal))

def rowLayer (h : (⟨Cert.KernelIdeal.S1x500000, .f32⟩ : BufTy).Contents (Elt Ideal)) : (⟨Cert.KernelIdeal.S1x500000, .f32⟩ : BufTy).Contents (Elt Ideal) :=
  Cert.KernelIdeal.Gen.out0_12 (Cert.KernelIdeal.Fn.roundA h (Cert.KernelIdeal.Fn.degRow src) src dst) h (Cert.KernelIdeal.Fn.degRow src) (Cert.KernelIdeal.Fn.degRow dst)
    (Cert.KernelIdeal.Fn.colOfRow W1) (Cert.KernelIdeal.Fn.colOfVec b1) (Cert.KernelIdeal.Fn.colOfRow Wres) (Cert.KernelIdeal.Fn.colOfVec g) (Cert.KernelIdeal.Fn.colOfVec b)
    (Cert.KernelIdeal.Fn.cellOfScalar a) W2 (Cert.KernelIdeal.Fn.cellOfVec b2)

def rowStates : Nat → (⟨Cert.KernelIdeal.S1x500000, .f32⟩ : BufTy).Contents (Elt Ideal)
  | 0 => Cert.KernelIdeal.Fn.h0 y
  | k + 1 => Cert.KernelIdeal.Fn.roundB (rowLayer src dst W1 b1 Wres g b a W2 b2 (rowStates k)) (rowStates k) (Cert.KernelIdeal.Fn.degRow dst) src dst

theorem layer_agree (h : (⟨Cert.KernelIdeal.S1x500000, .f32⟩ : BufTy).Contents (Elt Ideal)) (yy : (⟨Cert.ReferenceIdeal.S500000x1, .f32⟩ : BufTy).Contents (Elt Ideal))
    (hy : ∀ n : Fin 500000, h (ix2 (0 : Fin 1) n) = yy (ix2 n (0 : Fin 1))) (n : Fin 500000) :
    rowLayer src dst W1 b1 Wres g b a W2 b2 h (ix2 (0 : Fin 1) n)
      = Cert.ReferenceIdeal.Fn.dense (F := Ideal) (Cert.ReferenceIdeal.Fn.roundA yy (Cert.ReferenceIdeal.Fn.degScale src) src dst) yy
          (Cert.ReferenceIdeal.Fn.degScale src) (Cert.ReferenceIdeal.Fn.degScale dst) W1 b1 Wres g b a W2 b2 (ix2 n (0 : Fin 1)) := by
  unfold rowLayer
  rw [Cert.KernelIdeal.Dense.out0_12_apply, Cert.ReferenceIdeal.Dense.dense_apply,
    Cert.Bridge.roundA_bridge h (Cert.KernelIdeal.Fn.degRow src) yy (Cert.ReferenceIdeal.Fn.degScale src) src dst hy (fun i => Cert.Bridge.deg_bridge src i) n,
    hy n, Cert.Bridge.deg_bridge src n, Cert.Bridge.deg_bridge dst n]
  simp only [Cert.Bridge.colOfRow_apply, Cert.Bridge.colOfVec_apply, Cert.Bridge.cellOfVec_apply, Cert.Bridge.cellOfScalar_apply]

/-- After every number of rounds the state row and the state column agree node by node. -/
theorem states_agree : ∀ (k : Nat) (n : Fin 500000),
    rowStates y src dst W1 b1 Wres g b a W2 b2 k (ix2 (0 : Fin 1) n)
      = Cert.ReferenceIdeal.Run.statesOf (F := Ideal) y src dst W1 b1 Wres g b a W2 b2 k (ix2 n (0 : Fin 1))
  | 0, n => Cert.Bridge.h0_bridge y n
  | k + 1, n => by
      rw [rowStates, Cert.ReferenceIdeal.Run.statesOf]
      exact Cert.Bridge.roundB_bridge _ _ _ _ _ _ src dst
        (fun i => layer_agree src dst W1 b1 Wres g b a W2 b2 _ _ (fun i' => states_agree k i') i)
        (fun i => states_agree k i) (fun i => Cert.Bridge.deg_bridge dst i) n

theorem result_agree :
    Cert.KernelIdeal.Fn.colOfRowResult (F := Ideal) (rowStates y src dst W1 b1 Wres g b a W2 b2 4)
      = Cert.ReferenceIdeal.Run.statesOf (F := Ideal) y src dst W1 b1 Wres g b a W2 b2 4 := by
  funext i
  obtain ⟨p, q, rfl⟩ : ∃ (p : Fin 500000) (q : Fin 1), i = ix2 p q := ⟨i 0, i 1, eq_ix2 i⟩
  obtain rfl : q = 0 := Subsingleton.elim _ _
  rw [Cert.Bridge.result_apply]
  exact states_agree y src dst W1 b1 Wres g b a W2 b2 4 p

end Pure

theorem kernel_states (m : (ℓ : Loc Cert.KernelIdeal.nD Cert.KernelIdeal.τ Cert.KernelIdeal.sig) → Buf (Elt Ideal) ℓ) (c : Dev Cert.KernelIdeal.nD) :
    ∀ k : Nat, Cert.KernelIdeal.Run.states m c k
      = rowStates (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) k
  | 0 => rfl
  | k + 1 => by
      rw [Cert.KernelIdeal.Run.states, rowStates, kernel_states m c k]
      rfl

theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Run.states m' c 4 = Cert.KernelIdeal.Fn.colOfRowResult (Cert.KernelIdeal.Run.states m c 4) := by
  obtain ⟨h0, h1, h2, h3, h4, h5, h6, h7, h8, h9, h10⟩ := hag
  rw [kernel_states m c 4, result_agree]
  show Cert.ReferenceIdeal.Run.statesOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) 4 = _
  rw [h0, h1, h2, h3, h4, h5, h6, h7, h8, h9, h10]

end Cert.Equiv

end
-- ==== Proof.lean ====
/- The claim: two generated frames, the reference's frame as its run with the result dropped, nothing to preserve, and equal results after four rounds. -/
import proofs.«409853_j63763084476519_2_alg».proof.Defs
import proofs.«409853_j63763084476519_2_alg».proof.Proof.Gen.Kernel
import proofs.«409853_j63763084476519_2_alg».proof.Proof.Gen.Kernel.Skeleton
import proofs.«409853_j63763084476519_2_alg».proof.Proof.Gen.Kernel.Launch
import proofs.«409853_j63763084476519_2_alg».proof.Proof.Gen.Kernel.Points
import proofs.«409853_j63763084476519_2_alg».proof.Proof.Gen.Kernel.Frame
import proofs.«409853_j63763084476519_2_alg».proof.Proof.Gen.KernelIdeal
import proofs.«409853_j63763084476519_2_alg».proof.Proof.Gen.KernelIdeal.Skeleton
import proofs.«409853_j63763084476519_2_alg».proof.Proof.Gen.KernelIdeal.Launch
import proofs.«409853_j63763084476519_2_alg».proof.Proof.Gen.KernelIdeal.Points
import proofs.«409853_j63763084476519_2_alg».proof.Proof.Gen.KernelIdeal.Frame
import proofs.«409853_j63763084476519_2_alg».proof.Proof.Gen.ReferenceIdeal
import proofs.«409853_j63763084476519_2_alg».proof.Proof.Gen.Pre_finite_inputs
import proofs.«409853_j63763084476519_2_alg».proof.Proof.Equiv
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Run.run (F := Ideal) m ρ)

theorem algebraic : Cert.algebraic_KernelIdeal_ReferenceIdeal := fun m ρ m' ρ' _ hag =>
  ⟨fun c => Cert.KernelIdeal.Fn.colOfRowResult (Cert.KernelIdeal.Run.states m c 4), Cert.KernelIdeal.Run.run (F := Ideal) m ρ,
    (θ_run Cert.ReferenceIdeal.defs _ _).mono (fun _ h c => ⟨(h c).1.trans (Cert.Equiv.result_eq m m' c (hag c)), (h c).2⟩)
      (Cert.ReferenceIdeal.Run.run (F := Ideal) m' ρ')⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
